-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x300000 : Shape := ⟨2, ![2, 300000]⟩
abbrev S128x256 : Shape := ⟨2, ![128, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S2x300000 : S_.BroadcastsInDim S2x300000 (![] : Fin 0 → Fin S2x300000.rank)
  reducesTo_S2x300000_S_d0_1 : S2x300000.ReducesTo [0, 1] S_

variable [Facts]

def fn_part2 {F : FTy → Type} [FloatOps F] (main_arg1 : IVec S2x300000 32) (main_v33 : IVec S_ 1) : IVec S_ 1 :=
  let main_c_12 : IVec S_ 32 := constantI S_ 32 0#32
  let main_v34 : IVec S2x300000 32 := broadcastInDim S2x300000 ![] bcast_S_S2x300000 main_c_12
  let main_v35 : IVec S2x300000 1 := cmpi .sge main_arg1 main_v34
  let main_c_13 : IVec S_ 1 := constantI S_ 1 1#1
  let main_v36 : IVec S_ 1 := (fun x v => Host.reduce IntOp.andi x v reducesTo_S2x300000_S_d0_1 h_S_) main_v35 main_c_13
  let main_v37 : IVec S_ 1 := andi main_v33 main_v36
  let main_c_14 : IVec S_ 32 := constantI S_ 32 50000#32
  let main_v38 : IVec S2x300000 32 := broadcastInDim S2x300000 ![] bcast_S_S2x300000 main_c_14
  let main_v39 : IVec S2x300000 1 := cmpi .slt main_arg1 main_v38
  let main_c_15 : IVec S_ 1 := constantI S_ 1 1#1
  let main_v40 : IVec S_ 1 := (fun x v => Host.reduce IntOp.andi x v reducesTo_S2x300000_S_d0_1 h_S_) main_v39 main_c_15
  let main_v41 : IVec S_ 1 := andi main_v37 main_v40
  main_v41

def fn_part1 {F : FTy → Type} [FloatOps F] (main_arg1 : IVec S2x300000 32) (main_arg5 : FVec F S256 .f32) (main_arg6 : FVec F S256x32 .f32) (main_arg7 : FVec F S32 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x32 .f32 := Host.absf main_arg6
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x300000 32) (main_arg2 : FVec F S128x256 .f32) (main_arg3 : FVec F S256 .f32) (main_arg4 : FVec F S256x256 .f32) (main_arg5 : FVec F S256 .f32) (main_arg6 : FVec F S256x32 .f32) (main_arg7 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S50000x128 : Shape := ⟨2, ![50000, 128]⟩
abbrev S2x300000 : Shape := ⟨2, ![2, 300000]⟩
abbrev S128x256 : Shape := ⟨2, ![128, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x300000 : Shape := ⟨2, ![1, 300000]⟩
abbrev S300000 : Shape := ⟨1, ![300000]⟩
abbrev S50000 : Shape := ⟨1, ![50000]⟩
abbrev S350000 : Shape := ⟨1, ![350000]⟩
abbrev S_ : Shape := ⟨0, ![]⟩
abbrev S350000x1 : Shape := ⟨2, ![350000, 1]⟩
abbrev S208 : Shape := ⟨1, ![208]⟩
abbrev S350208 : Shape := ⟨1, ![350208]⟩
abbrev S350208x1 : Shape := ⟨2, ![350208, 1]⟩
abbrev S1x350208 : Shape := ⟨2, ![1, 350208]⟩
abbrev S1200x128 : Shape := ⟨2, ![1200, 128]⟩
abbrev S51200x128 : Shape := ⟨2, ![51200, 128]⟩
abbrev S51200x256 : Shape := ⟨2, ![51200, 256]⟩
abbrev S2048x128 : Shape := ⟨2, ![2048, 128]⟩
abbrev S2048x256 : Shape := ⟨2, ![2048, 256]⟩
abbrev S350208x256 : Shape := ⟨2, ![350208, 256]⟩
abbrev S1024x1 : Shape := ⟨2, ![1024, 1]⟩
abbrev S1024x256 : Shape := ⟨2, ![1024, 256]⟩
abbrev S1x2048 : Shape := ⟨2, ![1, 2048]⟩
abbrev S1024x2048 : Shape := ⟨2, ![1024, 2048]⟩
abbrev S1x256 : Shape := ⟨2, ![1, 256]⟩
abbrev S1x1024 : Shape := ⟨2, ![1, 1024]⟩
abbrev S2048x1 : Shape := ⟨2, ![2048, 1]⟩
abbrev S2048x1024 : Shape := ⟨2, ![2048, 1024]⟩
abbrev S1x32 : Shape := ⟨2, ![1, 32]⟩
abbrev S51200x32 : Shape := ⟨2, ![51200, 32]⟩
abbrev S2048x32 : Shape := ⟨2, ![2048, 32]⟩
abbrev S50000x32 : Shape := ⟨2, ![50000, 32]⟩

abbrev nBuf : Space → Nat
  | .hbm => 74
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x300000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x32, .f32⟩
  | .hbm, ⟨7, _⟩ => ⟨S32, .f32⟩
  | .hbm, ⟨8, _⟩ => ⟨S1x300000, .i32⟩
  | .hbm, ⟨9, _⟩ => ⟨S300000, .i32⟩
  | .hbm, ⟨10, _⟩ => ⟨S1x300000, .i32⟩
  | .hbm, ⟨11, _⟩ => ⟨S300000, .i32⟩
  | .hbm, ⟨12, _⟩ => ⟨S50000, .i32⟩
  | .hbm, ⟨13, _⟩ => ⟨S350000, .i32⟩
  | .hbm, ⟨14, _⟩ => ⟨S350000, .i32⟩
  | .hbm, ⟨15, _⟩ => ⟨S_, .f32⟩
  | .hbm, ⟨16, _⟩ => ⟨S350000, .f32⟩
  | .hbm, ⟨17, _⟩ => ⟨S_, .f32⟩
  | .hbm, ⟨18, _⟩ => ⟨S50000, .f32⟩
  | .hbm, ⟨19, _⟩ => ⟨S350000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S350000, .i32⟩
  | .hbm, ⟨31, _⟩ => ⟨S350000, .i1⟩
  | .hbm, ⟨32, _⟩ => ⟨S_, .i32⟩
  | .hbm, ⟨33, _⟩ => ⟨S350000, .i32⟩
  | .hbm, ⟨34, _⟩ => ⟨S350000, .i32⟩
  | .hbm, ⟨35, _⟩ => ⟨S350000, .i32⟩
  | .hbm, ⟨36, _⟩ => ⟨S350000x1, .i32⟩
  | .hbm, ⟨37, _⟩ => ⟨S350000, .f32⟩
  | .hbm, ⟨38, _⟩ => ⟨S_, .i32⟩
  | .hbm, ⟨39, _⟩ => ⟨S350000, .i32⟩
  | .hbm, ⟨40, _⟩ => ⟨S350000, .i1⟩
  | .hbm, ⟨41, _⟩ => ⟨S_, .i32⟩
  | .hbm, ⟨42, _⟩ => ⟨S350000, .i32⟩
  | .hbm, ⟨43, _⟩ => ⟨S350000, .i32⟩
  | .hbm, ⟨44, _⟩ => ⟨S350000, .i32⟩
  | .hbm, ⟨45, _⟩ => ⟨S350000x1, .i32⟩
  | .hbm, ⟨46, _⟩ => ⟨S350000, .f32⟩
  | .hbm, ⟨47, _⟩ => ⟨S350000, .f32⟩
  | .hbm, ⟨48, _⟩ => ⟨S_, .i32⟩
  | .hbm, ⟨49, _⟩ => ⟨S208, .i32⟩
  | .hbm, ⟨50, _⟩ => ⟨S350208, .i32⟩
  | .hbm, ⟨51, _⟩ => ⟨S_, .i32⟩
  | .hbm, ⟨52, _⟩ => ⟨S208, .i32⟩
  | .hbm, ⟨53, _⟩ => ⟨S350208, .i32⟩
  | .hbm, ⟨54, _⟩ => ⟨S_, .f32⟩
  | .hbm, ⟨55, _⟩ => ⟨S208, .f32⟩
  | .hbm, ⟨56, _⟩ => ⟨S350208, .f32⟩
  | .hbm, ⟨57, _⟩ => ⟨S350208x1, .i32⟩
  | .hbm, ⟨58, _⟩ => ⟨S1x350208, .i32⟩
  | .hbm, ⟨59, _⟩ => ⟨S350208x1, .f32⟩
  | .hbm, ⟨60, _⟩ => ⟨S_, .f32⟩
  | .hbm, ⟨61, _⟩ => ⟨S1200x128, .f32⟩
  | .hbm, ⟨62, _⟩ => ⟨S51200x128, .f32⟩
  | .hbm, ⟨63, _⟩ => ⟨S51200x256, .f32⟩
  | .hbm, ⟨64, _⟩ => ⟨S350208x256, .bf16⟩
  | .hbm, ⟨65, _⟩ => ⟨S1x256, .f32⟩
  | .hbm, ⟨66, _⟩ => ⟨S51200x256, .f32⟩
  | .hbm, ⟨67, _⟩ => ⟨S51200x256, .f32⟩
  | .hbm, ⟨68, _⟩ => ⟨S350208x256, .bf16⟩
  | .hbm, ⟨69, _⟩ => ⟨S1x256, .f32⟩
  | .hbm, ⟨70, _⟩ => ⟨S51200x256, .f32⟩
  | .hbm, ⟨71, _⟩ => ⟨S1x32, .f32⟩
  | .hbm, ⟨72, _⟩ => ⟨S51200x32, .f32⟩
  | .hbm, ⟨73, _⟩ => ⟨S50000x32, .f32⟩
  | .local _ .vmem, ⟨0, _⟩ => ⟨S2048x128, .f32⟩
  | .local _ .vmem, ⟨1, _⟩ => ⟨S2048x128, .f32⟩
  | .local _ .vmem, ⟨2, _⟩ => ⟨S128x256, .f32⟩
  | .local _ .vmem, ⟨3, _⟩ => ⟨S2048x256, .f32⟩
  | .local _ .vmem, ⟨4, _⟩ => ⟨S2048x256, .f32⟩
  | .local _ .vmem, ⟨5, _⟩ => ⟨S1024x1, .i32⟩
  | .local _ .vmem, ⟨6, _⟩ => ⟨S1024x1, .i32⟩
  | .local _ .vmem, ⟨7, _⟩ => ⟨S1024x1, .f32⟩
  | .local _ .vmem, ⟨8, _⟩ => ⟨S1024x1, .f32⟩
  | .local _ .vmem, ⟨9, _⟩ => ⟨S2048x256, .f32⟩
  | .local _ .vmem, ⟨10, _⟩ => ⟨S2048x256, .f32⟩
  | .local _ .vmem, ⟨11, _⟩ => ⟨S1024x256, .bf16⟩
  | .local _ .vmem, ⟨12, _⟩ => ⟨S1024x256, .bf16⟩
  | .local _ .vmem, ⟨13, _⟩ => ⟨S1024x256, .f32⟩
  | .local _ .vmem, ⟨14, _⟩ => ⟨S1x1024, .i32⟩
  | .local _ .vmem, ⟨15, _⟩ => ⟨S1x1024, .i32⟩
  | .local _ .vmem, ⟨16, _⟩ => ⟨S1024x256, .bf16⟩
  | .local _ .vmem, ⟨17, _⟩ => ⟨S1024x256, .bf16⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S256x256, .f32⟩
  | .local _ .vmem, ⟨25, _⟩ => ⟨S2048x256, .f32⟩
  | .local _ .vmem, ⟨26, _⟩ => ⟨S2048x256, .f32⟩
  | .local _ .vmem, ⟨27, _⟩ => ⟨S1024x1, .i32⟩
  | .local _ .vmem, ⟨28, _⟩ => ⟨S1024x1, .i32⟩
  | .local _ .vmem, ⟨29, _⟩ => ⟨S1024x1, .f32⟩
  | .local _ .vmem, ⟨30, _⟩ => ⟨S1024x1, .f32⟩
  | .local _ .vmem, ⟨31, _⟩ => ⟨S2048x256, .f32⟩
  | .local _ .vmem, ⟨32, _⟩ => ⟨S2048x256, .f32⟩
  | .local _ .vmem, ⟨33, _⟩ => ⟨S1024x256, .bf16⟩
  | .local _ .vmem, ⟨34, _⟩ => ⟨S1024x256, .bf16⟩
  | .local _ .vmem, ⟨35, _⟩ => ⟨S1024x256, .f32⟩
  | .local _ .vmem, ⟨36, _⟩ => ⟨S1x1024, .i32⟩
  | .local _ .vmem, ⟨37, _⟩ => ⟨S1x1024, .i32⟩
  | .local _ .vmem, ⟨38, _⟩ => ⟨S1024x256, .bf16⟩
  | .local _ .vmem, ⟨39, _⟩ => ⟨S1024x256, .bf16⟩
  | .local _ .vmem, ⟨40, _⟩ => ⟨S1x256, .f32⟩
  | .local _ .vmem, ⟨41, _⟩ => ⟨S2048x256, .f32⟩
  | .local _ .vmem, ⟨42, _⟩ => ⟨S2048x256, .f32⟩
  | .local _ .vmem, ⟨43, _⟩ => ⟨S2048x256, .f32⟩
  | .local _ .vmem, ⟨44, _⟩ => ⟨S2048x256, .f32⟩
  | .local _ .vmem, ⟨45, _⟩ => ⟨S2048x256, .f32⟩
  | .local _ .vmem, ⟨46, _⟩ => ⟨S256x32, .f32⟩
  | .local _ .vmem, ⟨47, _⟩ => ⟨S1x32, .f32⟩
  | .local _ .vmem, ⟨48, _⟩ => ⟨S2048x32, .f32⟩
  | .local _ .vmem, ⟨49, _⟩ => ⟨S2048x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![342, 25], ![false, false]⟩

def k1_cond2 (i : grid1.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_10 : BitVec 32 := 0#32
  let v30 : BitVec 1 := Scalar.cmpi .ne v29 c0_i32_10
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![25, 342], ![false, false]⟩

def k2_cond2 (i : grid2.Coords) : BitVec 1 :=
  let arg1 : BitVec 32 := BitVec.ofNat 32 (i 1).val
  let c341_i32 : BitVec 32 := 341#32
  let v23 : BitVec 1 := Scalar.cmpi .eq arg1 c341_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![342, 25], ![false, false]⟩

def k4_cond2 (i : grid4.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_10 : BitVec 32 := 0#32
  let v30 : BitVec 1 := Scalar.cmpi .ne v29 c0_i32_10
  v30

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 342], ![false, false]⟩

def k5_cond2 (i : grid5.Coords) : BitVec 1 :=
  let arg1 : BitVec 32 := BitVec.ofNat 32 (i 1).val
  let c341_i32 : BitVec 32 := 341#32
  let v23 : BitVec 1 := Scalar.cmpi .eq arg1 c341_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x1024 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S50000_S350000_d0 : Shape.Concatenates [S300000, S50000] S350000 0
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S_S208 : S_.BroadcastsInDim S208 (![] : Fin 0 → Fin S208.rank)
  concatenates_S350000_S208_S350208_d0 : Shape.Concatenates [S350000, S208] S350208 0
  shapeCasts_S350208_S350208x1 : S350208.ShapeCasts S350208x1
  shapeCasts_S350208_S1x350208 : S350208.ShapeCasts S1x350208
  bcast_S_S1200x128 : S_.BroadcastsInDim S1200x128 (![] : Fin 0 → Fin S1200x128.rank)
  concatenates_S50000x128_S1200x128_S51200x128_d0 : Shape.Concatenates [S50000x128, S1200x128] S51200x128 0
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1x2048_d1_w32 : S1x2048.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  broadcasts_S1x2048_S1024x2048 : S1x2048.Broadcasts S1024x2048
  natLt_1_32 : 1 < 32
  shapeCasts_S2048x256_S2048x256 : S2048x256.ShapeCasts S2048x256
  broadcasts_S1024x1_S1024x256 : S1024x1.Broadcasts S1024x256
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  iota_S2048x1_d0_w32 : S2048x1.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  broadcasts_S2048x1_S2048x1024 : S2048x1.Broadcasts S2048x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S32_S1x32 : S32.ShapeCasts S1x32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  slices_S51200x32_S50000x32_0_0 : S51200x32.Slices ![0, 0] S50000x32
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S2048x128_S128x256_S2048x256_1_0_0_1_n_n_wf : DotDims.WF S2048x128 S128x256 S2048x256 [1] [0] [0] [1] [] []
  dot_S1024x2048_S2048x256_S1024x256_1_0_0_1_n_n_wf : DotDims.WF S1024x2048 S2048x256 S1024x256 [1] [0] [0] [1] [] []
  dot_S2048x1024_S1024x256_S2048x256_1_0_0_1_n_n_wf : DotDims.WF S2048x1024 S1024x256 S2048x256 [1] [0] [0] [1] [] []
  dot_S2048x256_S256x256_S2048x256_1_0_0_1_n_n_wf : DotDims.WF S2048x256 S256x256 S2048x256 [1] [0] [0] [1] [] []
  dot_S2048x256_S256x32_S2048x32_1_0_0_1_n_n_wf : DotDims.WF S2048x256 S256x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .f32 = 32 ∨ (Rect.block (s := S51200x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S51200x256.size a
  hwx0_2 : ∀ i : grid0.Coords, EltTy.bits .f32 = 32 ∨ (Rect.block (s := S51200x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S350208x1.size a
  hwx1_0 : ∀ i : grid1.Coords, EltTy.bits .i32 = 32 ∨ (Rect.block (s := S350208x1) S1024x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S350208x1.size a
  hwx1_1 : ∀ i : grid1.Coords, EltTy.bits .f32 = 32 ∨ (Rect.block (s := S350208x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S51200x256.size a
  hwx1_2 : ∀ i : grid1.Coords, EltTy.bits .f32 = 32 ∨ (Rect.block (s := S51200x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S350208x256.size a
  hwx1_3 : ∀ i : grid1.Coords, EltTy.bits .bf16 = 32 ∨ (Rect.block (s := S350208x256) S1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x350208.size a
  hwx2_0 : ∀ i : grid2.Coords, EltTy.bits .i32 = 32 ∨ (Rect.block (s := S1x350208) S1x1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S350208x256.size a
  hwx2_1 : ∀ i : grid2.Coords, EltTy.bits .bf16 = 32 ∨ (Rect.block (s := S350208x256) S1024x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S51200x256.size a
  hwx2_3 : ∀ i : grid2.Coords, EltTy.bits .f32 = 32 ∨ (Rect.block (s := S51200x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S51200x256.size a
  hwx3_0 : ∀ i : grid3.Coords, EltTy.bits .f32 = 32 ∨ (Rect.block (s := S51200x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S51200x256.size a
  hwx3_2 : ∀ i : grid3.Coords, EltTy.bits .f32 = 32 ∨ (Rect.block (s := S51200x256) S2048x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1.size a ≤ S350208x1.size a
  hwx4_0 : ∀ i : grid4.Coords, EltTy.bits .i32 = 32 ∨ (Rect.block (s := S350208x1) S1024x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1.size a ≤ S350208x1.size a
  hwx4_1 : ∀ i : grid4.Coords, EltTy.bits .f32 = 32 ∨ (Rect.block (s := S350208x1) S1024x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S51200x256.size a
  hwx4_2 : ∀ i : grid4.Coords, EltTy.bits .f32 = 32 ∨ (Rect.block (s := S51200x256) S2048x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S350208x256.size a
  hwx4_3 : ∀ i : grid4.Coords, EltTy.bits .bf16 = 32 ∨ (Rect.block (s := S350208x256) S1024x256.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1024.size a ≤ S1x350208.size a
  hwx5_0 : ∀ i : grid5.Coords, EltTy.bits .i32 = 32 ∨ (Rect.block (s := S1x350208) S1x1024.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S350208x256.size a
  hwx5_1 : ∀ i : grid5.Coords, EltTy.bits .bf16 = 32 ∨ (Rect.block (s := S350208x256) S1024x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x256.size a ≤ S51200x256.size a
  hwx5_3 : ∀ i : grid5.Coords, EltTy.bits .f32 = 32 ∨ (Rect.block (s := S51200x256) S2048x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S51200x256.size a
  hwx6_0 : ∀ i : grid6.Coords, EltTy.bits .f32 = 32 ∨ (Rect.block (s := S51200x256) S2048x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x32.size a ≤ S256x32.size a
  hwx6_1 : ∀ i : grid6.Coords, EltTy.bits .f32 = 32 ∨ (Rect.block (s := S256x32) S256x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x32.size a ≤ S51200x32.size a
  hwx6_3 : ∀ i : grid6.Coords, EltTy.bits .f32 = 32 ∨ (Rect.block (s := S51200x32) S2048x32.size (cc6_transform_3 i) (hinb6_3 i)).WholeWords (EltTy.packing .f32)

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf

abbrev win0_0 : Pipeline.Window sig grid0 :=
  Pipeline.Window.ofSpec (Memref.whole main_v40) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v37) S1x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v44) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v36) S1024x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S1024x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S2048x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1024x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v37) S1x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1024x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S2048x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v48) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S256x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v50) S2048x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x300000 : Shape := ⟨2, ![2, 300000]⟩
abbrev S128x256 : Shape := ⟨2, ![128, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x300000 : Shape := ⟨2, ![1, 300000]⟩
abbrev S300000 : Shape := ⟨1, ![300000]⟩
abbrev S50000 : Shape := ⟨1, ![50000]⟩
abbrev S350000 : Shape := ⟨1, ![350000]⟩
abbrev S_ : Shape := ⟨0, ![]⟩
abbrev S350000x1 : Shape := ⟨2, ![350000, 1]⟩
abbrev S50000x256 : Shape := ⟨2, ![50000, 256]⟩
abbrev S350000x256 : Shape := ⟨2, ![350000, 256]⟩
abbrev S1x256 : Shape := ⟨2, ![1, 256]⟩
abbrev S50000x32 : Shape := ⟨2, ![50000, 32]⟩
abbrev S1x32 : Shape := ⟨2, ![1, 32]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x300000, .i32⟩
  | 2 => ⟨S128x256, .f32⟩
  | 3 => ⟨S256, .f32⟩
  | 4 => ⟨S256x256, .f32⟩
  | 5 => ⟨S256, .f32⟩
  | 6 => ⟨S256x32, .f32⟩
  | 7 => ⟨S32, .f32⟩
  | 8 => ⟨S1x300000, .i32⟩
  | 9 => ⟨S300000, .i32⟩
  | 10 => ⟨S1x300000, .i32⟩
  | 11 => ⟨S300000, .i32⟩
  | 12 => ⟨S50000, .i32⟩
  | 13 => ⟨S350000, .i32⟩
  | 14 => ⟨S350000, .i32⟩
  | 15 => ⟨S_, .f32⟩
  | 16 => ⟨S350000, .f32⟩
  | 17 => ⟨S_, .f32⟩
  | 18 => ⟨S50000, .f32⟩
  | 19 => ⟨S350000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S350000, .i32⟩
  | 31 => ⟨S350000, .i1⟩
  | 32 => ⟨S_, .i32⟩
  | 33 => ⟨S350000, .i32⟩
  | 34 => ⟨S350000, .i32⟩
  | 35 => ⟨S350000, .i32⟩
  | 36 => ⟨S350000x1, .i32⟩
  | 37 => ⟨S350000, .f32⟩
  | 38 => ⟨S_, .i32⟩
  | 39 => ⟨S350000, .i32⟩
  | 40 => ⟨S350000, .i1⟩
  | 41 => ⟨S_, .i32⟩
  | 42 => ⟨S350000, .i32⟩
  | 43 => ⟨S350000, .i32⟩
  | 44 => ⟨S350000, .i32⟩
  | 45 => ⟨S350000x1, .i32⟩
  | 46 => ⟨S350000, .f32⟩
  | 47 => ⟨S350000, .f32⟩
  | 48 => ⟨S50000x256, .f32⟩
  | 49 => ⟨S_, .i32⟩
  | 50 => ⟨S350000, .i32⟩
  | 51 => ⟨S350000, .i1⟩
  | 52 => ⟨S_, .i32⟩
  | 53 => ⟨S350000, .i32⟩
  | 54 => ⟨S350000, .i32⟩
  | 55 => ⟨S350000, .i32⟩
  | 56 => ⟨S350000x1, .i32⟩
  | 57 => ⟨S350000x256, .f32⟩
  | 58 => ⟨S350000x1, .f32⟩
  | 59 => ⟨S350000x256, .f32⟩
  | 60 => ⟨S350000x256, .f32⟩
  | 61 => ⟨S_, .f32⟩
  | 62 => ⟨S50000x256, .f32⟩
  | 63 => ⟨S350000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000, .i32⟩
  | 72 => ⟨S350000, .i32⟩
  | 73 => ⟨S350000, .i32⟩
  | 74 => ⟨S_, .f32⟩
  | 75 => ⟨S350000, .f32⟩
  | 76 => ⟨S_, .f32⟩
  | 77 => ⟨S50000, .f32⟩
  | 78 => ⟨S350000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S350000, .i32⟩
  | 90 => ⟨S350000, .i1⟩
  | 91 => ⟨S_, .i32⟩
  | 92 => ⟨S350000, .i32⟩
  | 93 => ⟨S350000, .i32⟩
  | 94 => ⟨S350000, .i32⟩
  | 95 => ⟨S350000x1, .i32⟩
  | 96 => ⟨S350000, .f32⟩
  | 97 => ⟨S_, .i32⟩
  | 98 => ⟨S350000, .i32⟩
  | 99 => ⟨S350000, .i1⟩
  | 100 => ⟨S_, .i32⟩
  | 101 => ⟨S350000, .i32⟩
  | 102 => ⟨S350000, .i32⟩
  | 103 => ⟨S350000, .i32⟩
  | 104 => ⟨S350000x1, .i32⟩
  | 105 => ⟨S350000, .f32⟩
  | 106 => ⟨S350000, .f32⟩
  | 107 => ⟨S50000x256, .f32⟩
  | 108 => ⟨S_, .i32⟩
  | 109 => ⟨S350000, .i32⟩
  | 110 => ⟨S350000, .i1⟩
  | 111 => ⟨S_, .i32⟩
  | 112 => ⟨S350000, .i32⟩
  | 113 => ⟨S350000, .i32⟩
  | 114 => ⟨S350000, .i32⟩
  | 115 => ⟨S350000x1, .i32⟩
  | 116 => ⟨S350000x256, .f32⟩
  | 117 => ⟨S350000x1, .f32⟩
  | 118 => ⟨S350000x256, .f32⟩
  | 119 => ⟨S350000x256, .f32⟩
  | 120 => ⟨S_, .f32⟩
  | 121 => ⟨S50000x256, .f32⟩
  | 122 => ⟨S350000x1, .i32⟩
  | 123 => ⟨S50000x256, .f32⟩
  | 124 => ⟨S1x256, .f32⟩
  | 125 => ⟨S50000x256, .f32⟩
  | 126 => ⟨S50000x256, .f32⟩
  | 127 => ⟨S_, .f32⟩
  | _ => ⟨S50000x128, .f32⟩

abbrev hbmTy0_1 (i : Nat) : BufTy := match i % 128 with
  | 0 => ⟨S50000x256, .f32⟩
  | 1 => ⟨S50000x256, .f32⟩
  | 2 => ⟨S50000x32, .f32⟩
  | 3 => ⟨S1x32, .f32⟩
  | 4 => ⟨S50000x32, .f32⟩
  | 5 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S50000_S350000_d0 : Shape.Concatenates [S300000, S50000] S350000 0
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S50000x128_S128x256_S50000x256_1_0_0_1_n_n_wf : DotDims.WF S50000x128 S128x256 S50000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  dot_S50000x256_S256x256_S50000x256_1_0_0_1_n_n_wf : DotDims.WF S50000x256 S256x256 S50000x256 [1] [0] [0] [1] [] []
  dot_S50000x256_S256x32_S50000x32_1_0_0_1_n_n_wf : DotDims.WF S50000x256 S256x32 S50000x32 [1] [0] [0] [1] [] []

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf

class Facts : Prop extends Facts₀ where

variable [Facts]
-- ==== Proof.K.Reg0.lean ====
import proofs.«146792_j51445118271859_1_alg».proof.Proof.Gen.Kernel.Launch
import proofs.«146792_j51445118271859_1_alg».proof.Proof.Gen.Kernel.Skeleton
import proofs.«146792_j51445118271859_1_alg».proof.Proof.Gen.Kernel.Points
import Idealize.ShloMosaic.Lib.Pipeline.FrameBody
import Idealize.ShloMosaic.Lib.Pipeline.TableIdle
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem zeros0 : (![0, 0] : Fin 2 → Nat) = fun _ => 0 := by decide

-- Run on inputs equal to x0 and x1, the body keeps both and leaves k0_pay1 x0 x1 as its output.
theorem sound_kernel0 (c : Dev nD) (i : grid0.Coords) (E : Set ℕ) {a1 : Memref sig .tc .vmem S2048x128 .f32} (h1 : a1.IsWhole)
    {a2 : Memref sig .tc .vmem S128x256 .f32} (h2 : a2.IsWhole) {a3 : Memref sig .tc .vmem S2048x256 .f32} (h3 : a3.IsWhole)
    {x0 : Vec F S2048x128 .f32} {x1 : Vec F S128x256 .f32} {b0 : Vec F S2048x128 .f32 → Vec F S2048x128 .f32}
    {b1 : Vec F S128x256 .f32 → Vec F S128x256 .f32} (e0 : ∀ d, b0 d = x0) (e1 : ∀ d, b1 d = x1)
    (g : Vec F S2048x256 .f32 → Vec F S2048x256 .f32) :
    (iprop((∃ d, owns c.tc a1 fullShare (b0 d)) ∗ (∃ d, owns c.tc a2 fullShare (b1 d)) ∗ (∃ d, owns c.tc a3 fullShare (g d))) : sProp (MT nD τ sig Unit (Elt F) ℕ (UR sig nD τ) ℕ))
      ⊢ wp frame (wpE (defs₀ (F := F)) Variants.none c none) E (cc0__linear_kernel i a1 h1 a2 h2 a3 h3) fun _ =>
        iprop(owns c.tc a1 fullShare x0 ∗ owns c.tc a2 fullShare x1 ∗ owns c.tc a3 fullShare (k0_pay1 x0 x1)) := by
  simp only [e0, e1]
  rw [cc0__linear_kernel_eq_skeleton, owns_eq_rep, owns_eq_rep]; unfold cc0__linear_kernel_skel owns
  iintro ⟨⟨%_, H0⟩, ⟨%_, H1⟩, %d, %f, -, H2⟩
  sl_exec
  sl_step
  iframe H0 H1
  iexists _
  iframe H2
  ipureintro
  rw [View.readAt_eq_ld, View.readAt_eq_ld, View.read_rep, View.read_rep, View.ld_unit_zero (S := S2048x128) zeros0,
    View.ld_unit_zero (S := S128x256) zeros0]
  exact (View.read_writes_eq_canon _ _ _ (View.cover_of_tiled _ S2048x256.size (by rfl))).trans (View.canon_unit_zero zeros0 _ _)

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

variable (t : Fin cfg0.N)

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d

theorem body_obligation0 : BodyObligation (dat0 (F := F) V c) (defs₀ (F := F)) Variants.none () Set.univ := fun t => by
  rw [bigSep_W0, bigSep_W0]
  show _ ⊢ wp _ _ _ (bodyAt0 t) _
  exact (sep_mono_right (sep_mono_right (sound_kernel0 c _ Set.univ _ _ _ (before0_0 V c t) (before0_1 V c t) _))).trans
    ((sep_mono_right (wp_frame_l _ _ _)).trans (wp_frame_l _ _ _))

end Cert.Kernel.Hand

end
-- ==== Proof.K.Reg1.Runs.lean ====
import proofs.«146792_j51445118271859_1_alg».proof.Proof.Gen.Kernel.Launch
import proofs.«146792_j51445118271859_1_alg».proof.Proof.Gen.Kernel.Skeleton
import proofs.«146792_j51445118271859_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem coord1_1 (t : Fin grid1.N) : (grid1.coords t 1).val = t.val % 25 := by
  show t.val / grid1.stride 1 % 25 = t.val % 25
  rw [show grid1.stride 1 = 1 from by decide, Nat.div_one]

theorem cond1_0_coord : ∀ v : Fin 25,
    (Scalar.cmpi .ne (Scalar.extui (Scalar.cmpi .eq (BitVec.ofNat 32 v.val) 0#32)) 0#32) = 1#1 ↔ v.val = 0 := by decide +kernel

theorem hcond1_0 : ∀ t : Fin cfg1.N, cond1_0 (grid1.coords t) ↔ t.val % 25 = 0 := fun t =>
  (show cond1_0 (grid1.coords t) ↔ (grid1.coords t 1).val = 0 from cond1_0_coord (grid1.coords t 1)).trans (by rw [coord1_1 t])

abbrev cond1_1 (i : grid1.Coords) : Prop := k1_cond2 i = 1#1

theorem cond1_1_coord : ∀ v : Fin 25,
    (Scalar.cmpi .ne (Scalar.extui (Scalar.cmpi .eq (BitVec.ofNat 32 v.val) 24#32)) 0#32) = 1#1 ↔ v.val = 24 := by decide +kernel

theorem hcond1_1 : ∀ t : Fin cfg1.N, cond1_1 (grid1.coords t) ↔ t.val % 25 = 24 := fun t =>
  (show cond1_1 (grid1.coords t) ↔ (grid1.coords t 1).val = 24 from cond1_1_coord (grid1.coords t 1)).trans (by rw [coord1_1 t])

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := by
  intro t h
  show (!(k1_cond2 (grid1.coords t) == 1#1)) = true
  rw [Bool.not_eq_true', beq_eq_false_iff_ne]; exact h

theorem noFlush1_3 : ∀ t : Fin cfg1.N, ¬cond1_1 (grid1.coords t) → (cfg1.win 3).flush t = false := by
  intro t h
  have h24 : ¬t.val % 25 = 24 := fun e => h ((hcond1_1 t).mpr e)
  cases hf : (cfg1.win 3).flush t with
  | false => rfl
  | true => exact absurd ((flush1_3 t).mp hf) h24

theorem liveAt1_3 : ∀ t : Fin cfg1.N, cond1_1 (grid1.coords t) → cfg1.idle 3 (grid1.coords t) = false := by
  intro t h
  show (!(k1_cond2 (grid1.coords t) == 1#1)) = false
  rw [Bool.not_eq_false', beq_iff_eq]; exact h

abbrev ms1_0 (t : Fin cfg1.N) : Memref sig .tc .vmem S1024x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)

abbrev scM1_0 : Memref sig .tc .vmem S1024x256 .f32 := Memref.whole cc1_scratch0

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.Reg1.RunA.lean ====
import proofs.«146792_j51445118271859_1_alg».proof.Proof.K.Reg1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg2 : Memref sig .tc .vmem S1024x1 .i32) (harg2 : arg2.IsWhole) (arg3 : Memref sig .tc .vmem S1024x1 .f32) (harg3 : arg3.IsWhole) (arg4 : Memref sig .tc .vmem S2048x256 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x1 .i32) (x1 : Vec F S1024x1 .f32) (x2 : Vec F S2048x256 .f32) :
    Σ' (L3 : List (View.Piece (Elt F) S1024x256 .bf16)), { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg1.RunB.lean ====
import proofs.«146792_j51445118271859_1_alg».proof.Proof.K.Reg1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg2 : Memref sig .tc .vmem S1024x1 .i32) (harg2 : arg2.IsWhole) (arg3 : Memref sig .tc .vmem S1024x1 .f32) (harg3 : arg3.IsWhole) (arg4 : Memref sig .tc .vmem S2048x256 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x1 .i32) (x1 : Vec F S1024x1 .f32) (x2 : Vec F S2048x256 .f32) (xs0 : Vec F S1024x256 .f32) :
    Σ' (L3 : List (View.Piece (Elt F) S1024x256 .bf16)), { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg1.RunC.lean ====
import proofs.«146792_j51445118271859_1_alg».proof.Proof.K.Reg1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_C (c : Dev nD) (i : grid1.Coords) (arg2 : Memref sig .tc .vmem S1024x1 .i32) (harg2 : arg2.IsWhole) (arg3 : Memref sig .tc .vmem S1024x1 .f32) (harg3 : arg3.IsWhole) (arg4 : Memref sig .tc .vmem S2048x256 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x1 .i32) (x1 : Vec F S1024x1 .f32) (x2 : Vec F S2048x256 .f32) (xs0 : Vec F S1024x256 .f32) :
    Σ' (L3 : List (View.Piece (Elt F) S1024x256 .bf16)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg1.lean ====
import proofs.«146792_j51445118271859_1_alg».proof.Proof.K.Reg1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The contents a run's two lists of pieces determine: the output block's and the accumulator's.
def outs1 {P : List (View.Piece (Elt F) S1024x256 .bf16) → List (View.Piece (Elt F) S1024x256 .f32) → Prop}
    (r : Σ' L3, { LS0 // P L3 LS0 }) : Vec F S1024x256 .bf16 × Vec F S1024x256 .f32 := (View.canon r.1, View.canon r.2.1)

variable (c : Dev nD) (t : Fin cfg1.N)

-- The three cases of the body at grid point t (a: the accumulator's contents on entry).
def runA1 (h0 : t.val % 25 = 0) :=
  kernelRun1_A c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => absurd ((hcond1_1 t).mp h) (by omega)) (iblk1 V c 0 t) (iblk1 V c 1 t) (iblk1 V c 2 t)
def runB1 (h0 : ¬t.val % 25 = 0) (h1 : ¬t.val % 25 = 24) (a : Vec F S1024x256 .f32) :=
  kernelRun1_B c (grid1.coords t) (ms1_0 t) (hs1_0 t) (ms1_1 t) (hs1_1 t) (ms1_2 t) (hs1_2 t) (ms1_3 t) (hs1_3 t) scM1_0 (Memref.isWhole_whole _)
    (mt (hcond1_0 t).mp h0) (mt (hcond1_1 t).mp h1) (iblk1 V c 0 t) (iblk1 V c 1 t) (iblk1 V c 2 t) a
def runC1 (h1 : t.val % 25 = 24) (a : Vec F S1024x256 .f32) :=
  kernelRun1_C c (grid1.coords t) (ms1_0 t) (hs1_0 t) (ms1_1 t) (hs1_1 t) (ms1_2 t) (hs1_2 t) (ms1_3 t) (hs1_3 t) scM1_0 (Memref.isWhole_whole _)
    (fun h => absurd ((hcond1_0 t).mp h) (by omega)) ((hcond1_1 t).mpr h1) (iblk1 V c 0 t) (iblk1 V c 1 t) (iblk1 V c 2 t) a

-- What the output block and the accumulator hold after position n: the case n % 25 selects, over what position n - 1 left.
def outsAt1 (c : Dev nD) : (n : ℕ) → n < cfg1.N → Vec F S1024x256 .bf16 × Vec F S1024x256 .f32
  | 0, hn => outs1 (runA1 V c ⟨0, hn⟩ (Nat.zero_mod 25))
  | n + 1, hn =>
    if h0 : (n + 1) % 25 = 0 then outs1 (runA1 V c ⟨n + 1, hn⟩ h0)
    else if h1 : (n + 1) % 25 = 24 then outs1 (runC1 V c ⟨n + 1, hn⟩ h1 (outsAt1 c n (Nat.lt_of_succ_lt hn)).2)
    else outs1 (runB1 V c ⟨n + 1, hn⟩ h0 h1 (outsAt1 c n (Nat.lt_of_succ_lt hn)).2)

-- The accumulator's contents on entry to a point that is not the first.
abbrev prev1 : Vec F S1024x256 .f32 := (outsAt1 V c (t.val - 1) (Nat.lt_of_le_of_lt (Nat.sub_le _ _) t.isLt)).2

theorem outsAt1_A (h0 : t.val % 25 = 0) : outsAt1 V c t.val t.isLt = outs1 (runA1 V c t h0) := by
  obtain ⟨n, hn⟩ := t
  cases n with
  | zero => rfl
  | succ n => exact dif_pos h0

theorem outsAt1_B (h0 : ¬t.val % 25 = 0) (h1 : ¬t.val % 25 = 24) : outsAt1 V c t.val t.isLt = outs1 (runB1 V c t h0 h1 (prev1 V c t)) := by
  obtain ⟨n, hn⟩ := t
  cases n with
  | zero => exact absurd (Nat.zero_mod 25) h0
  | succ n => exact (dif_neg h0).trans (dif_neg h1)

theorem outsAt1_C (h1 : t.val % 25 = 24) : outsAt1 V c t.val t.isLt = outs1 (runC1 V c t h1 (prev1 V c t)) := by
  obtain ⟨n, hn⟩ := t
  cases n with
  | zero => exact absurd h1 (show ¬(0 % 25 = 24) by decide)
  | succ n => exact (dif_neg fun e => absurd (e.symm.trans h1) (show ¬(0 = 24) by decide)).trans (dif_pos h1)

-- The region invariant around the accumulator's assertion P.
def inv1 (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

-- The region invariant before position n: the accumulator at what position n - 1 left (at anything before the first).
def PhiS1 (c : Dev nD) : (n : ℕ) → n ≤ cfg1.N → sProp 𝕄
  | 0, _ => Pipeline.ΦA spec1 c
  | n + 1, hn => inv1 c (owns (c : Thread nD τ) scM1_0 fullShare (outsAt1 V c n hn).2)

theorem PhiS1_pos (n : ℕ) (h : n ≤ cfg1.N) (hz : n ≠ 0) :
    PhiS1 V c n h = inv1 c (owns (c : Thread nD τ) scM1_0 fullShare (outsAt1 V c (n - 1) (by omega)).2) := by
  cases n with
  | zero => exact absurd rfl hz
  | succ n => rfl

-- At every position the invariant gives the accumulator at some contents.
theorem PhiS1_any (n : ℕ) (h : n ≤ cfg1.N) : PhiS1 V c n h ⊢ inv1 c iprop(∃ d, owns (c : Thread nD τ) scM1_0 fullShare d) := by
  cases n with
  | zero => rw [show PhiS1 V c 0 h = Pipeline.ΦA spec1 c from rfl, PhiA1_eq]; exact .rfl
  | succ n =>
    unfold PhiS1 inv1
    iintro ⟨⟨HS0, Hr⟩, Hg⟩
    iframe Hr Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 : (dat1 V c).after 3 t = (outsAt1 V c t.val t.isLt).1 := rfl

-- Pieces that tile a block determine its contents, whatever it held before.
theorem written1 {s : Shape} {e : EltTy} (M : Memref sig .tc .vmem s e) (L : List (View.Piece (Elt F) s e))
    (hL : View.Piece.tiledL L s.size = true) (f : Buf (Elt F) (M.view.loc (c : Thread nD τ))) :
    (M.view.loc (c : Thread nD τ) ↦[M.view.set]{fullShare} M.view.writes (Elt F) f L : sProp 𝕄) ⊢ owns (c : Thread nD τ) M fullShare (View.canon L) := by
  iintro H; unfold owns; iexists M.view.writes (Elt F) f L; isplitr
  · ipureintro; exact View.read_writes_eq_canon _ _ _ (View.cover_of_tiledL L _ hL)
  iexact H

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 : (dat1 V c).leavesExact 0 t = owns (c : Thread nD τ) (ms1_0 t) fullShare (iblk1 V c 0 t) :=
  show _ = owns (c : Thread nD τ) (ms1_0 t) fullShare ((dat1 V c).after 0 t) from by unfold Dat.leavesExact; rw [liveAt1_0 t]
theorem leaves1_1 : (dat1 V c).leavesExact 1 t = owns (c : Thread nD τ) (ms1_1 t) fullShare (iblk1 V c 1 t) :=
  show _ = owns (c : Thread nD τ) (ms1_1 t) fullShare ((dat1 V c).after 1 t) from by unfold Dat.leavesExact; rw [liveAt1_1 t]
theorem leaves1_2 : (dat1 V c).leavesExact 2 t = owns (c : Thread nD τ) (ms1_2 t) fullShare (iblk1 V c 2 t) :=
  show _ = owns (c : Thread nD τ) (ms1_2 t) fullShare ((dat1 V c).after 2 t) from by unfold Dat.leavesExact; rw [liveAt1_2 t]

theorem leaves1_3 (h1 : t.val % 25 = 24) : (dat1 V c).leavesExact 3 t = owns (c : Thread nD τ) (ms1_3 t) fullShare (outsAt1 V c t.val t.isLt).1 :=
  show _ = owns (c : Thread nD τ) (ms1_3 t) fullShare ((dat1 V c).after 3 t) from by unfold Dat.leavesExact; rw [liveAt1_3 t ((hcond1_1 t).mpr h1)]

theorem leaves_out1 (h1 : ¬t.val % 25 = 24) :
    (dat1 V c).leavesExact 3 t = iprop(∃ d, owns (c : Thread nD τ) (ms1_3 t) fullShare ((dat1 V c).before 3 t d)) :=
  Dat.leavesExact_idle (dat1 V c) 3 t (idleAt1_3 t (mt (hcond1_1 t).mp h1)) (noFlush1_3 t (mt (hcond1_1 t).mp h1))

theorem sound_body1 :
    bodyPre1 V c t ⊢ wp frame (wpE (defs₀ (F := F)) Variants.none c none) Set.univ (bodyAt1 t) (fun _ => bodyPost1 V c t) := by
  unfold bodyPre1 bodyPost1 bodyAt1
  simp only [before1_0_of V (dat1 V c) rfl (fun _ => rfl), before1_1_of V (dat1 V c) rfl (fun _ => rfl), before1_2_of V (dat1 V c) rfl (fun _ => rfl)]
  rw [show (dat1 V c).owesAt () t.succ = (dat1 V c).owesAt () t.castSucc from rfl,
    show (dat1 V c).Φ t.succ = inv1 c (owns (c : Thread nD τ) scM1_0 fullShare (outsAt1 V c t.val t.isLt).2) from rfl,
    leaves1_0, leaves1_1, leaves1_2, show (dat1 V c).Φ t.castSucc = PhiS1 V c t.val (Nat.le_of_lt t.isLt) from rfl]
  by_cases h0 : t.val % 25 = 0
  · rw [leaves_out1 V c t (by omega), outsAt1_A V c t h0]
    unfold outs1; dsimp only
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    unfold inv1
    icases HΦ' with ⟨⟨HS0, Hr⟩, Hg⟩
    iapply ((runA1 V c t h0).2.2 ((dat1 V c).before 3 t d3) Set.univ _)
    iframe H0 H1 H2 H3 HS0
    iintro ⟨H0, H1, H2, H3, ⟨%es0, HS0⟩⟩
    ihave HS := (written1 c scM1_0 (runA1 V c t h0).2.1 (by sl_kernel_rfl) _) $$ HS0
    iframe
    iexists _; iexact H3
  · have hz : t.val ≠ 0 := fun e => h0 (by rw [e])
    rw [PhiS1_pos V c _ _ hz]
    unfold inv1
    by_cases h1 : t.val % 25 = 24
    · rw [leaves1_3 V c t h1, outsAt1_C V c t h1]
      unfold outs1; dsimp only
      iintro ⟨⟨⟨HS0, Hr⟩, Hg⟩, Ho, ⟨%d0, H0⟩, ⟨%d1, H1⟩, ⟨%d2, H2⟩, ⟨%d3, H3⟩⟩
      iapply ((runC1 V c t h1 (prev1 V c t)).2.2 Set.univ _)
      iframe H0 H1 H2 HS0
      isplitl [H3]; · iexists _; iexact H3
      iintro ⟨H0, H1, H2, ⟨%e3, H3⟩, ⟨%es0, HS0⟩⟩
      ihave HS := (written1 c scM1_0 (runC1 V c t h1 (prev1 V c t)).2.1 (by sl_kernel_rfl) _) $$ HS0
      ihave HO := (written1 c (ms1_3 t) (runC1 V c t h1 (prev1 V c t)).1 (by sl_kernel_rfl) _) $$ H3
      iframe
    · rw [leaves_out1 V c t h1, outsAt1_B V c t h0 h1]
      unfold outs1; dsimp only
      iintro ⟨⟨⟨HS0, Hr⟩, Hg⟩, Ho, ⟨%d0, H0⟩, ⟨%d1, H1⟩, ⟨%d2, H2⟩, ⟨%d3, H3⟩⟩
      iapply ((runB1 V c t h0 h1 (prev1 V c t)).2.2 ((dat1 V c).before 3 t d3) Set.univ _)
      iframe H0 H1 H2 H3 HS0
      iintro ⟨H0, H1, H2, H3, ⟨%es0, HS0⟩⟩
      ihave HS := (written1 c scM1_0 (runB1 V c t h0 h1 (prev1 V c t)).2.1 (by sl_kernel_rfl) _) $$ HS0
      iframe
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]; exact PhiS1_any V c (Fin.last cfg1.N).val _

end Cert.Kernel.Hand

end
-- ==== Proof.K.Reg2.Runs.lean ====
import proofs.«146792_j51445118271859_1_alg».proof.Proof.Gen.Kernel.Launch
import proofs.«146792_j51445118271859_1_alg».proof.Proof.Gen.Kernel.Skeleton
import proofs.«146792_j51445118271859_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem coord2_1 (t : Fin grid2.N) : (grid2.coords t 1).val = t.val % 342 := by
  show t.val / grid2.stride 1 % 342 = t.val % 342
  rw [show grid2.stride 1 = 1 from by decide, Nat.div_one]

theorem cond2_0_coord : ∀ v : Fin 342,
    (Scalar.cmpi .ne (Scalar.extui (Scalar.cmpi .eq (BitVec.ofNat 32 v.val) 0#32)) 0#32) = 1#1 ↔ v.val = 0 := by decide +kernel

theorem hcond2_0 : ∀ t : Fin cfg2.N, cond2_0 (grid2.coords t) ↔ t.val % 342 = 0 := fun t =>
  (show cond2_0 (grid2.coords t) ↔ (grid2.coords t 1).val = 0 from cond2_0_coord (grid2.coords t 1)).trans (by rw [coord2_1 t])

abbrev cond2_1 (i : grid2.Coords) : Prop := k2_cond2 i = 1#1

theorem cond2_1_coord : ∀ v : Fin 342,
    (Scalar.cmpi .ne (Scalar.extui (Scalar.cmpi .eq (BitVec.ofNat 32 v.val) 341#32)) 0#32) = 1#1 ↔ v.val = 341 := by decide +kernel

theorem hcond2_1 : ∀ t : Fin cfg2.N, cond2_1 (grid2.coords t) ↔ t.val % 342 = 341 := fun t =>
  (show cond2_1 (grid2.coords t) ↔ (grid2.coords t 1).val = 341 from cond2_1_coord (grid2.coords t 1)).trans (by rw [coord2_1 t])

abbrev ms2_0 (t : Fin cfg2.N) : Memref sig .tc .vmem S1x1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)

abbrev scM2_0 : Memref sig .tc .vmem S2048x256 .f32 := Memref.whole cc2_scratch0

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.Reg2.RunA.lean ====
import proofs.«146792_j51445118271859_1_alg».proof.Proof.K.Reg2.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_A (c : Dev nD) (i : grid2.Coords) (arg2 : Memref sig .tc .vmem S1x1024 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S1x1024 .i32) (x1 : Vec F S1024x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg2.RunB.lean ====
import proofs.«146792_j51445118271859_1_alg».proof.Proof.K.Reg2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_B (c : Dev nD) (i : grid2.Coords) (arg2 : Memref sig .tc .vmem S1x1024 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S1x1024 .i32) (x1 : Vec F S1024x256 .bf16) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg2.RunC.lean ====
import proofs.«146792_j51445118271859_1_alg».proof.Proof.K.Reg2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_C (c : Dev nD) (i : grid2.Coords) (arg2 : Memref sig .tc .vmem S1x1024 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S1x1024 .i32) (x1 : Vec F S1024x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg2.lean ====
import proofs.«146792_j51445118271859_1_alg».proof.Proof.K.Reg2.RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body's three runs at grid point t.
def runA2 (c : Dev nD) (t : Fin cfg2.N) (h0 : t.val % 342 = 0) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => by have := (hcond2_1 t).mp h; omega) (iblk2 V c 0 t) (iblk2 V c 1 t) (iblk2 V c 2 t)

def runB2 (c : Dev nD) (t : Fin cfg2.N) (h0 : ¬t.val % 342 = 0) (h1 : ¬t.val % 342 = 341) (xs0 : Vec F S2048x256 .f32) :=
  kernelRun2_B c (grid2.coords t) (ms2_0 t) (hs2_0 t) (ms2_1 t) (hs2_1 t) (ms2_2 t) (hs2_2 t) (ms2_3 t) (hs2_3 t) scM2_0 (Memref.isWhole_whole _) (mt (hcond2_0 t).mp h0) (mt (hcond2_1 t).mp h1) (iblk2 V c 0 t) (iblk2 V c 1 t) (iblk2 V c 2 t) xs0

def runC2 (c : Dev nD) (t : Fin cfg2.N) (h1 : t.val % 342 = 341) (xs0 : Vec F S2048x256 .f32) :=
  kernelRun2_C c (grid2.coords t) (ms2_0 t) (hs2_0 t) (ms2_1 t) (hs2_1 t) (ms2_2 t) (hs2_2 t) (ms2_3 t) (hs2_3 t) scM2_0 (Memref.isWhole_whole _) (fun h => by have := (hcond2_0 t).mp h; omega) ((hcond2_1 t).mpr h1) (iblk2 V c 0 t) (iblk2 V c 1 t) (iblk2 V c 2 t) xs0

-- The contents a run's two lists of pieces determine.
def ends2 {P : List (View.Piece (Elt F) S2048x256 .f32) → List (View.Piece (Elt F) S2048x256 .f32) → Prop} (r : Σ' L3, { LS0 // P L3 LS0 }) : Vec F S2048x256 .f32 × Vec F S2048x256 .f32 :=
  (View.canon r.1, View.canon r.2.1)

-- After point n: the sum restarts where n ≡ 0 (mod 342), else continues from point n - 1.
def outsAt2 (c : Dev nD) (n : ℕ) (hn : n < cfg2.N) : Vec F S2048x256 .f32 × Vec F S2048x256 .f32 :=
  if h0 : n % 342 = 0 then ends2 (runA2 V c ⟨n, hn⟩ h0)
  else if h1 : n % 342 = 341 then ends2 (runC2 V c ⟨n, hn⟩ h1 (outsAt2 c (n - 1) (by omega)).2)
  else ends2 (runB2 V c ⟨n, hn⟩ h0 h1 (outsAt2 c (n - 1) (by omega)).2)

theorem outsAt2_A (c : Dev nD) (t : Fin cfg2.N) (h0 : t.val % 342 = 0) : outsAt2 V c t.val t.isLt = ends2 (runA2 V c t h0) := by
  rw [outsAt2, dif_pos h0]

theorem outsAt2_B (c : Dev nD) (t : Fin cfg2.N) (h0 : ¬t.val % 342 = 0) (h1 : ¬t.val % 342 = 341) :
    outsAt2 V c t.val t.isLt = ends2 (runB2 V c t h0 h1 (outsAt2 V c (t.val - 1) (by omega)).2) := by
  rw [outsAt2, dif_neg h0, dif_neg h1]

theorem outsAt2_C (c : Dev nD) (t : Fin cfg2.N) (h1 : t.val % 342 = 341) :
    outsAt2 V c t.val t.isLt = ends2 (runC2 V c t h1 (outsAt2 V c (t.val - 1) (by omega)).2) := by
  rw [outsAt2, dif_neg (by omega), dif_pos h1]

-- The accumulator before point n.
def acc2 (c : Dev nD) : (n : ℕ) → n ≤ cfg2.N → sProp 𝕄
  | 0, _ => iprop(∃ d, owns (c : Thread nD τ) scM2_0 fullShare d)
  | n + 1, hn => owns (c : Thread nD τ) scM2_0 fullShare (outsAt2 V c n hn).2

theorem acc2_pos (c : Dev nD) (n : ℕ) (h : n ≤ cfg2.N) (hz : n ≠ 0) :
    acc2 V c n h = owns (c : Thread nD τ) scM2_0 fullShare (outsAt2 V c (n - 1) (by omega)).2 := by
  cases n with
  | zero => exact absurd rfl hz
  | succ n => rfl

theorem acc2_any (c : Dev nD) (n : ℕ) (h : n ≤ cfg2.N) : acc2 V c n h ⊢ iprop(∃ d, owns (c : Thread nD τ) scM2_0 fullShare d) := by
  cases n with
  | zero => exact Entails.refl _
  | succ n => unfold acc2; iintro H; iexists _; iexact H

-- The region invariant around the accumulator's assertion P.
def inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := inv2 c (acc2 V c t.val (Nat.le_of_lt_succ t.isLt))
  q _ := fullShare
  owed _ := 0

theorem A_eq2 (c : Dev nD) (w : Fin cfg2.W) : (dat2 V c).A w = V c (Pipeline.arrRef spec2 w) := rfl

theorem before2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;> exact fun d => (Dat.before_in_eq_fetched _ _ rfl (fun _ => rfl) (fun _ _ _ => rfl) (fun _ => rfl) t d).trans rfl

-- The output block is stored only where t ≡ 341 (mod 342).
theorem idle2_3 (t : Fin cfg2.N) (h1 : ¬t.val % 342 = 341) : cfg2.idle 3 (grid2.coords t) = true := by
  show (!(k2_cond2 _ == 1#1)) = true; rw [beq_eq_false_iff_ne.mpr (mt (hcond2_1 t).mp h1)]; rfl

-- Tiling pieces determine the contents, whatever was there before.
theorem wrote2 (c : Dev nD) (m : Memref sig .tc .vmem S2048x256 .f32) (L : List (View.Piece (Elt F) S2048x256 .f32)) (h : View.Piece.tiledL L S2048x256.size = true) :
    (iprop(∃ f, m.view.loc (c : Thread nD τ) ↦[m.view.set]{fullShare} m.view.writes (Elt F) f L) : sProp 𝕄) ⊢ owns (c : Thread nD τ) m fullShare (View.canon L) := by
  iintro ⟨%f, H⟩; unfold owns; iexists m.view.writes (Elt F) f L; isplitr
  · ipureintro; exact View.read_writes_eq_canon _ _ _ (View.cover_of_tiledL L _ h)
  iexact H

theorem sound_body2 (c : Dev nD) (t : Fin cfg2.N) :
    iprop(inv2 c (acc2 V c t.val (Nat.le_of_lt t.isLt)) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) fun _ =>
      iprop(inv2 c (owns (c : Thread nD τ) scM2_0 fullShare (outsAt2 V c t.val t.isLt).2) ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t) := by
  simp only [(before2 V c t).1, (before2 V c t).2.1, (before2 V c t).2.2]
  unfold inv2 bodyAt2
  rcases (by omega : t.val % 342 = 341 ∨ t.val % 342 = 0 ∨ ¬t.val % 342 = 0 ∧ ¬t.val % 342 = 341) with h1 | h0 | ⟨h0, h1⟩
  on_goal 1 =>
    rw [show (dat2 V c).leavesExact 3 t = owns (c : Thread nD τ) (ms2_3 t) fullShare (outsAt2 V c t.val t.isLt).1 from by
      unfold Dat.leavesExact; rw [show cfg2.idle 3 (grid2.coords t) = false from by show (!(k2_cond2 _ == 1#1)) = false; rw [(hcond2_1 t).mpr h1]; rfl]; rfl,
      outsAt2_C V c t h1, acc2_pos V c t.val _ (by omega)]
  on_goal 2 =>
    rw [Dat.leavesExact_idle (dat2 V c) 3 t (idle2_3 t (by omega)) (Bool.eq_false_iff.mpr (mt (flush2_3 t).mp (by omega))), outsAt2_A V c t h0]
  on_goal 3 =>
    rw [Dat.leavesExact_idle (dat2 V c) 3 t (idle2_3 t h1) (Bool.eq_false_iff.mpr (mt (flush2_3 t).mp h1)), outsAt2_B V c t h0 h1, acc2_pos V c t.val _ (by omega)]
  all_goals
    unfold ends2; dsimp only
    iintro ⟨⟨⟨HS0, HR⟩, Hg⟩, Ho, ⟨%d0, H0⟩, ⟨%d1, H1⟩, ⟨%d2, H2⟩, ⟨%d3, H3⟩⟩
  on_goal 1 =>
    iapply (runC2 V c t h1 _).2.2 Set.univ _
    iframe H0 H1 H2
    isplitl [H3]; · iexists _; iexact H3
    iframe HS0
  on_goal 2 =>
    iapply (runA2 V c t h0).2.2 _ Set.univ _
    iframe H0 H1 H2
    isplitl [H3]; · iexact H3
    isplitl [HS0]; · iapply acc2_any V c _ _ $$ HS0
  on_goal 3 =>
    iapply (runB2 V c t h0 h1 _).2.2 _ Set.univ _
    iframe H0 H1 H2
    isplitl [H3]; · iexact H3
    iframe HS0
  all_goals
    iintro ⟨H0, H1, H2, H3, HS0⟩
    iframe HR Hg Ho H0 H1 H2
    isplitl [HS0]
    · iapply wrote2 c _ _ (by sl_kernel_rfl) $$ HS0
    first | iapply wrote2 c _ _ (by sl_kernel_rfl) $$ H3 | (iexists _; iexact H3)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Entails.of_eq (PhiA2_eq c)

theorem hout2 (c : Dev nD) : (dat2 V c).Φ (Fin.last cfg2.N) ⊢ Pipeline.ΦA spec2 c := by
  rw [PhiA2_eq]
  exact sep_mono_left (sep_mono_left (acc2_any V c _ _))

end Cert.Kernel.Hand

end
-- ==== Proof.K.Reg3.lean ====
import proofs.«146792_j51445118271859_1_alg».proof.Proof.Gen.Kernel.Launch
import proofs.«146792_j51445118271859_1_alg».proof.Proof.Gen.Kernel.Skeleton
import proofs.«146792_j51445118271859_1_alg».proof.Proof.Gen.Kernel.Points
import Idealize.ShloMosaic.Lib.Pipeline.FrameBody
import Idealize.ShloMosaic.Lib.Pipeline.TableIdle
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem zeros3 : (![0, 0] : Fin 2 → Nat) = fun _ => 0 := by decide

-- Run on inputs equal to x0 and x1, the body keeps both and leaves k3_pay1 x0 x1 as its output.
theorem sound_kernel3 (c : Dev nD) (i : grid3.Coords) (E : Set ℕ) {a1 : Memref sig .tc .vmem S2048x256 .f32} (h1 : a1.IsWhole)
    {a2 : Memref sig .tc .vmem S256x256 .f32} (h2 : a2.IsWhole) {a3 : Memref sig .tc .vmem S2048x256 .f32} (h3 : a3.IsWhole)
    {x0 : Vec F S2048x256 .f32} {x1 : Vec F S256x256 .f32} {b0 : Vec F S2048x256 .f32 → Vec F S2048x256 .f32}
    {b1 : Vec F S256x256 .f32 → Vec F S256x256 .f32} (e0 : ∀ d, b0 d = x0) (e1 : ∀ d, b1 d = x1)
    (g : Vec F S2048x256 .f32 → Vec F S2048x256 .f32) :
    (iprop((∃ d, owns c.tc a1 fullShare (b0 d)) ∗ (∃ d, owns c.tc a2 fullShare (b1 d)) ∗ (∃ d, owns c.tc a3 fullShare (g d))) : sProp (MT nD τ sig Unit (Elt F) ℕ (UR sig nD τ) ℕ))
      ⊢ wp frame (wpE (defs₀ (F := F)) Variants.none c none) E (cc3__linear_kernel i a1 h1 a2 h2 a3 h3) fun _ =>
        iprop(owns c.tc a1 fullShare x0 ∗ owns c.tc a2 fullShare x1 ∗ owns c.tc a3 fullShare (k3_pay1 x0 x1)) := by
  simp only [e0, e1]
  rw [cc3__linear_kernel_eq_skeleton, owns_eq_rep, owns_eq_rep]; unfold cc3__linear_kernel_skel owns
  iintro ⟨⟨%_, H0⟩, ⟨%_, H1⟩, %d, %f, -, H2⟩
  sl_exec
  sl_step
  iframe H0 H1
  iexists _
  iframe H2
  ipureintro
  rw [View.readAt_eq_ld, View.readAt_eq_ld, View.read_rep, View.read_rep, View.ld_unit_zero (S := S2048x256) zeros3,
    View.ld_unit_zero (S := S256x256) zeros3]
  exact (View.read_writes_eq_canon _ _ _ (View.cover_of_tiled _ S2048x256.size (by rfl))).trans (View.canon_unit_zero zeros3 _ _)

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (w : Fin cfg3.W) : (dat3 V c).A w = V c (Pipeline.arrRef spec3 w) := rfl

variable (t : Fin cfg3.N)

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d

theorem body_obligation3 : BodyObligation (dat3 (F := F) V c) (defs₀ (F := F)) Variants.none () Set.univ := fun t => by
  rw [bigSep_W3, bigSep_W3]
  show _ ⊢ wp _ _ _ (bodyAt3 t) _
  exact (sep_mono_right (sep_mono_right (sound_kernel3 c _ Set.univ _ _ _ (before3_0 V c t) (before3_1 V c t) _))).trans
    ((sep_mono_right (wp_frame_l _ _ _)).trans (wp_frame_l _ _ _))

end Cert.Kernel.Hand

end
-- ==== Proof.K.Reg4.Runs.lean ====
import proofs.«146792_j51445118271859_1_alg».proof.Proof.Gen.Kernel.Launch
import proofs.«146792_j51445118271859_1_alg».proof.Proof.Gen.Kernel.Skeleton
import proofs.«146792_j51445118271859_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1

theorem coord4_1 (t : Fin grid4.N) : (grid4.coords t 1).val = t.val % 25 := by
  show t.val / grid4.stride 1 % 25 = t.val % 25
  rw [show grid4.stride 1 = 1 from by decide, Nat.div_one]

theorem cond4_0_coord : ∀ v : Fin 25,
    (Scalar.cmpi .ne (Scalar.extui (Scalar.cmpi .eq (BitVec.ofNat 32 v.val) 0#32)) 0#32) = 1#1 ↔ v.val = 0 := by decide +kernel

theorem hcond4_0 : ∀ t : Fin cfg4.N, cond4_0 (grid4.coords t) ↔ t.val % 25 = 0 := fun t =>
  (show cond4_0 (grid4.coords t) ↔ (grid4.coords t 1).val = 0 from cond4_0_coord (grid4.coords t 1)).trans (by rw [coord4_1 t])

abbrev cond4_1 (i : grid4.Coords) : Prop := k4_cond2 i = 1#1

theorem cond4_1_coord : ∀ v : Fin 25,
    (Scalar.cmpi .ne (Scalar.extui (Scalar.cmpi .eq (BitVec.ofNat 32 v.val) 24#32)) 0#32) = 1#1 ↔ v.val = 24 := by decide +kernel

theorem hcond4_1 : ∀ t : Fin cfg4.N, cond4_1 (grid4.coords t) ↔ t.val % 25 = 24 := fun t =>
  (show cond4_1 (grid4.coords t) ↔ (grid4.coords t 1).val = 24 from cond4_1_coord (grid4.coords t 1)).trans (by rw [coord4_1 t])

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

theorem idleAt4_3 : ∀ t : Fin cfg4.N, ¬cond4_1 (grid4.coords t) → cfg4.idle 3 (grid4.coords t) = true := by
  intro t h
  show (!(k4_cond2 (grid4.coords t) == 1#1)) = true
  rw [Bool.not_eq_true', beq_eq_false_iff_ne]; exact h

theorem noFlush4_3 : ∀ t : Fin cfg4.N, ¬cond4_1 (grid4.coords t) → (cfg4.win 3).flush t = false := by
  intro t h
  have h24 : ¬t.val % 25 = 24 := fun e => h ((hcond4_1 t).mpr e)
  cases hf : (cfg4.win 3).flush t with
  | false => rfl
  | true => exact absurd ((flush4_3 t).mp hf) h24

theorem liveAt4_3 : ∀ t : Fin cfg4.N, cond4_1 (grid4.coords t) → cfg4.idle 3 (grid4.coords t) = false := by
  intro t h
  show (!(k4_cond2 (grid4.coords t) == 1#1)) = false
  rw [Bool.not_eq_false', beq_iff_eq]; exact h

abbrev ms4_0 (t : Fin cfg4.N) : Memref sig .tc .vmem S1024x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x256 .bf16 := win4_3.stage (cfg4.slots t 3)
abbrev hs4_3 (t : Fin cfg4.N) : (ms4_3 t).IsWhole := hstage4_3 ((cfg4.slots t 3).cast nbuf4_3)

abbrev scM4_0 : Memref sig .tc .vmem S1024x256 .f32 := Memref.whole cc4_scratch0

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.Reg4.lean ====
import proofs.«146792_j51445118271859_1_alg».proof.Proof.K.Reg1.RunC
import proofs.«146792_j51445118271859_1_alg».proof.Proof.K.Reg4.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The contents a run's two lists of pieces determine: the output block's and the accumulator's.
def outs4 {P : List (View.Piece (Elt F) S1024x256 .bf16) → List (View.Piece (Elt F) S1024x256 .f32) → Prop}
    (r : Σ' L3, { LS0 // P L3 LS0 }) : Vec F S1024x256 .bf16 × Vec F S1024x256 .f32 := (View.canon r.1, View.canon r.2.1)

variable (c : Dev nD) (t : Fin cfg4.N)

-- The three cases of the body at grid point t (a: the accumulator's contents on entry).
def runA4 (h0 : t.val % 25 = 0) :=
  kernelRun1_A c (grid4.coords t) (ms4_0 t) (hs4_0 t) (ms4_1 t) (hs4_1 t) (ms4_2 t) (hs4_2 t) (ms4_3 t) (hs4_3 t) scM4_0 (Memref.isWhole_whole _)
    ((hcond4_0 t).mpr h0) (fun h => absurd ((hcond4_1 t).mp h) (by omega)) (iblk4 V c 0 t) (iblk4 V c 1 t) (iblk4 V c 2 t)
def runB4 (h0 : ¬t.val % 25 = 0) (h1 : ¬t.val % 25 = 24) (a : Vec F S1024x256 .f32) :=
  kernelRun1_B c (grid4.coords t) (ms4_0 t) (hs4_0 t) (ms4_1 t) (hs4_1 t) (ms4_2 t) (hs4_2 t) (ms4_3 t) (hs4_3 t) scM4_0 (Memref.isWhole_whole _)
    (mt (hcond4_0 t).mp h0) (mt (hcond4_1 t).mp h1) (iblk4 V c 0 t) (iblk4 V c 1 t) (iblk4 V c 2 t) a
def runC4 (h1 : t.val % 25 = 24) (a : Vec F S1024x256 .f32) :=
  kernelRun1_C c (grid4.coords t) (ms4_0 t) (hs4_0 t) (ms4_1 t) (hs4_1 t) (ms4_2 t) (hs4_2 t) (ms4_3 t) (hs4_3 t) scM4_0 (Memref.isWhole_whole _)
    (fun h => absurd ((hcond4_0 t).mp h) (by omega)) ((hcond4_1 t).mpr h1) (iblk4 V c 0 t) (iblk4 V c 1 t) (iblk4 V c 2 t) a

-- What the output block and the accumulator hold after position n: the case n % 25 selects, over what position n - 1 left.
def outsAt4 (c : Dev nD) : (n : ℕ) → n < cfg4.N → Vec F S1024x256 .bf16 × Vec F S1024x256 .f32
  | 0, hn => outs4 (runA4 V c ⟨0, hn⟩ (Nat.zero_mod 25))
  | n + 1, hn =>
    if h0 : (n + 1) % 25 = 0 then outs4 (runA4 V c ⟨n + 1, hn⟩ h0)
    else if h1 : (n + 1) % 25 = 24 then outs4 (runC4 V c ⟨n + 1, hn⟩ h1 (outsAt4 c n (Nat.lt_of_succ_lt hn)).2)
    else outs4 (runB4 V c ⟨n + 1, hn⟩ h0 h1 (outsAt4 c n (Nat.lt_of_succ_lt hn)).2)

-- The accumulator's contents on entry to a point that is not the first.
abbrev prev4 : Vec F S1024x256 .f32 := (outsAt4 V c (t.val - 1) (Nat.lt_of_le_of_lt (Nat.sub_le _ _) t.isLt)).2

theorem outsAt4_A (h0 : t.val % 25 = 0) : outsAt4 V c t.val t.isLt = outs4 (runA4 V c t h0) := by
  obtain ⟨n, hn⟩ := t
  cases n with
  | zero => rfl
  | succ n => exact dif_pos h0

theorem outsAt4_B (h0 : ¬t.val % 25 = 0) (h1 : ¬t.val % 25 = 24) : outsAt4 V c t.val t.isLt = outs4 (runB4 V c t h0 h1 (prev4 V c t)) := by
  obtain ⟨n, hn⟩ := t
  cases n with
  | zero => exact absurd (Nat.zero_mod 25) h0
  | succ n => exact (dif_neg h0).trans (dif_neg h1)

theorem outsAt4_C (h1 : t.val % 25 = 24) : outsAt4 V c t.val t.isLt = outs4 (runC4 V c t h1 (prev4 V c t)) := by
  obtain ⟨n, hn⟩ := t
  cases n with
  | zero => exact absurd h1 (show ¬(0 % 25 = 24) by decide)
  | succ n => exact (dif_neg fun e => absurd (e.symm.trans h1) (show ¬(0 = 24) by decide)).trans (dif_pos h1)

-- The region invariant around the accumulator's assertion P.
def inv4 (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

-- The region invariant before position n: the accumulator at what position n - 1 left (at anything before the first).
def PhiS4 (c : Dev nD) : (n : ℕ) → n ≤ cfg4.N → sProp 𝕄
  | 0, _ => Pipeline.ΦA spec4 c
  | n + 1, hn => inv4 c (owns (c : Thread nD τ) scM4_0 fullShare (outsAt4 V c n hn).2)

theorem PhiS4_pos (n : ℕ) (h : n ≤ cfg4.N) (hz : n ≠ 0) :
    PhiS4 V c n h = inv4 c (owns (c : Thread nD τ) scM4_0 fullShare (outsAt4 V c (n - 1) (by omega)).2) := by
  cases n with
  | zero => exact absurd rfl hz
  | succ n => rfl

-- At every position the invariant gives the accumulator at some contents.
theorem PhiS4_any (n : ℕ) (h : n ≤ cfg4.N) : PhiS4 V c n h ⊢ inv4 c iprop(∃ d, owns (c : Thread nD τ) scM4_0 fullShare d) := by
  cases n with
  | zero => rw [show PhiS4 V c 0 h = Pipeline.ΦA spec4 c from rfl, PhiA4_eq]; exact .rfl
  | succ n =>
    unfold PhiS4 inv4
    iintro ⟨⟨HS0, Hr⟩, Hg⟩
    iframe Hr Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_3 : (dat4 V c).after 3 t = (outsAt4 V c t.val t.isLt).1 := rfl

-- Pieces that tile a block determine its contents, whatever it held before.
theorem written4 {s : Shape} {e : EltTy} (M : Memref sig .tc .vmem s e) (L : List (View.Piece (Elt F) s e))
    (hL : View.Piece.tiledL L s.size = true) (f : Buf (Elt F) (M.view.loc (c : Thread nD τ))) :
    (M.view.loc (c : Thread nD τ) ↦[M.view.set]{fullShare} M.view.writes (Elt F) f L : sProp 𝕄) ⊢ owns (c : Thread nD τ) M fullShare (View.canon L) := by
  iintro H; unfold owns; iexists M.view.writes (Elt F) f L; isplitr
  · ipureintro; exact View.read_writes_eq_canon _ _ _ (View.cover_of_tiledL L _ hL)
  iexact H

def bodyPre4 : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t)

theorem leaves4_0 : (dat4 V c).leavesExact 0 t = owns (c : Thread nD τ) (ms4_0 t) fullShare (iblk4 V c 0 t) :=
  show _ = owns (c : Thread nD τ) (ms4_0 t) fullShare ((dat4 V c).after 0 t) from by unfold Dat.leavesExact; rw [liveAt4_0 t]
theorem leaves4_1 : (dat4 V c).leavesExact 1 t = owns (c : Thread nD τ) (ms4_1 t) fullShare (iblk4 V c 1 t) :=
  show _ = owns (c : Thread nD τ) (ms4_1 t) fullShare ((dat4 V c).after 1 t) from by unfold Dat.leavesExact; rw [liveAt4_1 t]
theorem leaves4_2 : (dat4 V c).leavesExact 2 t = owns (c : Thread nD τ) (ms4_2 t) fullShare (iblk4 V c 2 t) :=
  show _ = owns (c : Thread nD τ) (ms4_2 t) fullShare ((dat4 V c).after 2 t) from by unfold Dat.leavesExact; rw [liveAt4_2 t]

theorem leaves4_3 (h1 : t.val % 25 = 24) : (dat4 V c).leavesExact 3 t = owns (c : Thread nD τ) (ms4_3 t) fullShare (outsAt4 V c t.val t.isLt).1 :=
  show _ = owns (c : Thread nD τ) (ms4_3 t) fullShare ((dat4 V c).after 3 t) from by unfold Dat.leavesExact; rw [liveAt4_3 t ((hcond4_1 t).mpr h1)]

theorem leaves_out4 (h1 : ¬t.val % 25 = 24) :
    (dat4 V c).leavesExact 3 t = iprop(∃ d, owns (c : Thread nD τ) (ms4_3 t) fullShare ((dat4 V c).before 3 t d)) :=
  Dat.leavesExact_idle (dat4 V c) 3 t (idleAt4_3 t (mt (hcond4_1 t).mp h1)) (noFlush4_3 t (mt (hcond4_1 t).mp h1))

theorem sound_body4 :
    bodyPre4 V c t ⊢ wp frame (wpE (defs₀ (F := F)) Variants.none c none) Set.univ (bodyAt4 t) (fun _ => bodyPost4 V c t) := by
  unfold bodyPre4 bodyPost4 bodyAt4
  simp only [before4_0_of V (dat4 V c) rfl (fun _ => rfl), before4_1_of V (dat4 V c) rfl (fun _ => rfl), before4_2_of V (dat4 V c) rfl (fun _ => rfl)]
  rw [show (dat4 V c).owesAt () t.succ = (dat4 V c).owesAt () t.castSucc from rfl,
    show (dat4 V c).Φ t.succ = inv4 c (owns (c : Thread nD τ) scM4_0 fullShare (outsAt4 V c t.val t.isLt).2) from rfl,
    leaves4_0, leaves4_1, leaves4_2, show (dat4 V c).Φ t.castSucc = PhiS4 V c t.val (Nat.le_of_lt t.isLt) from rfl]
  by_cases h0 : t.val % 25 = 0
  · rw [leaves_out4 V c t (by omega), outsAt4_A V c t h0]
    unfold outs4; dsimp only
    iintro ⟨HΦ, Ho, ⟨%d0, H0⟩, ⟨%d1, H1⟩, ⟨%d2, H2⟩, ⟨%d3, H3⟩⟩
    ihave HΦ' := (PhiS4_any V c t.val (Nat.le_of_lt t.isLt)) $$ HΦ
    unfold inv4
    icases HΦ' with ⟨⟨HS0, Hr⟩, Hg⟩
    iapply ((runA4 V c t h0).2.2 ((dat4 V c).before 3 t d3) Set.univ _)
    iframe H0 H1 H2 H3 HS0
    iintro ⟨H0, H1, H2, H3, ⟨%es0, HS0⟩⟩
    ihave HS := (written4 c scM4_0 (runA4 V c t h0).2.1 (by sl_kernel_rfl) _) $$ HS0
    iframe
    iexists _; iexact H3
  · have hz : t.val ≠ 0 := fun e => h0 (by rw [e])
    rw [PhiS4_pos V c _ _ hz]
    unfold inv4
    by_cases h1 : t.val % 25 = 24
    · rw [leaves4_3 V c t h1, outsAt4_C V c t h1]
      unfold outs4; dsimp only
      iintro ⟨⟨⟨HS0, Hr⟩, Hg⟩, Ho, ⟨%d0, H0⟩, ⟨%d1, H1⟩, ⟨%d2, H2⟩, ⟨%d3, H3⟩⟩
      iapply ((runC4 V c t h1 (prev4 V c t)).2.2 Set.univ _)
      iframe H0 H1 H2 HS0
      isplitl [H3]; · iexists _; iexact H3
      iintro ⟨H0, H1, H2, ⟨%e3, H3⟩, ⟨%es0, HS0⟩⟩
      ihave HS := (written4 c scM4_0 (runC4 V c t h1 (prev4 V c t)).2.1 (by sl_kernel_rfl) _) $$ HS0
      ihave HO := (written4 c (ms4_3 t) (runC4 V c t h1 (prev4 V c t)).1 (by sl_kernel_rfl) _) $$ H3
      iframe
    · rw [leaves_out4 V c t h1, outsAt4_B V c t h0 h1]
      unfold outs4; dsimp only
      iintro ⟨⟨⟨HS0, Hr⟩, Hg⟩, Ho, ⟨%d0, H0⟩, ⟨%d1, H1⟩, ⟨%d2, H2⟩, ⟨%d3, H3⟩⟩
      iapply ((runB4 V c t h0 h1 (prev4 V c t)).2.2 ((dat4 V c).before 3 t d3) Set.univ _)
      iframe H0 H1 H2 H3 HS0
      iintro ⟨H0, H1, H2, H3, ⟨%es0, HS0⟩⟩
      ihave HS := (written4 c scM4_0 (runB4 V c t h0 h1 (prev4 V c t)).2.1 (by sl_kernel_rfl) _) $$ HS0
      iframe
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]; exact PhiS4_any V c (Fin.last cfg4.N).val _

end Cert.Kernel.Hand

end
-- ==== Proof.K.Reg5.Runs.lean ====
import proofs.«146792_j51445118271859_1_alg».proof.Proof.Gen.Kernel.Launch
import proofs.«146792_j51445118271859_1_alg».proof.Proof.Gen.Kernel.Skeleton
import proofs.«146792_j51445118271859_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1

theorem coord5_1 (t : Fin grid5.N) : (grid5.coords t 1).val = t.val % 342 := by
  show t.val / grid5.stride 1 % 342 = t.val % 342
  rw [show grid5.stride 1 = 1 from by decide, Nat.div_one]

theorem cond5_0_coord : ∀ v : Fin 342,
    (Scalar.cmpi .ne (Scalar.extui (Scalar.cmpi .eq (BitVec.ofNat 32 v.val) 0#32)) 0#32) = 1#1 ↔ v.val = 0 := by decide +kernel

theorem hcond5_0 : ∀ t : Fin cfg5.N, cond5_0 (grid5.coords t) ↔ t.val % 342 = 0 := fun t =>
  (show cond5_0 (grid5.coords t) ↔ (grid5.coords t 1).val = 0 from cond5_0_coord (grid5.coords t 1)).trans (by rw [coord5_1 t])

abbrev cond5_1 (i : grid5.Coords) : Prop := k5_cond2 i = 1#1

theorem cond5_1_coord : ∀ v : Fin 342,
    (Scalar.cmpi .ne (Scalar.extui (Scalar.cmpi .eq (BitVec.ofNat 32 v.val) 341#32)) 0#32) = 1#1 ↔ v.val = 341 := by decide +kernel

theorem hcond5_1 : ∀ t : Fin cfg5.N, cond5_1 (grid5.coords t) ↔ t.val % 342 = 341 := fun t =>
  (show cond5_1 (grid5.coords t) ↔ (grid5.coords t 1).val = 341 from cond5_1_coord (grid5.coords t 1)).trans (by rw [coord5_1 t])

abbrev ms5_0 (t : Fin cfg5.N) : Memref sig .tc .vmem S1x1024 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x256 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x256 .f32 := win5_3.stage (cfg5.slots t 3)
abbrev hs5_3 (t : Fin cfg5.N) : (ms5_3 t).IsWhole := hstage5_3 ((cfg5.slots t 3).cast nbuf5_3)

abbrev scM5_0 : Memref sig .tc .vmem S2048x256 .f32 := Memref.whole cc5_scratch0

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.K.Reg5.lean ====
import proofs.«146792_j51445118271859_1_alg».proof.Proof.K.Reg2.RunC
import proofs.«146792_j51445118271859_1_alg».proof.Proof.K.Reg5.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body's three runs at grid point t.
def runA5 (c : Dev nD) (t : Fin cfg5.N) (h0 : t.val % 342 = 0) :=
  kernelRun2_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => by have := (hcond5_1 t).mp h; omega) (iblk5 V c 0 t) (iblk5 V c 1 t) (iblk5 V c 2 t)

def runB5 (c : Dev nD) (t : Fin cfg5.N) (h0 : ¬t.val % 342 = 0) (h1 : ¬t.val % 342 = 341) (xs0 : Vec F S2048x256 .f32) :=
  kernelRun2_B c (grid5.coords t) (ms5_0 t) (hs5_0 t) (ms5_1 t) (hs5_1 t) (ms5_2 t) (hs5_2 t) (ms5_3 t) (hs5_3 t) scM5_0 (Memref.isWhole_whole _) (mt (hcond5_0 t).mp h0) (mt (hcond5_1 t).mp h1) (iblk5 V c 0 t) (iblk5 V c 1 t) (iblk5 V c 2 t) xs0

def runC5 (c : Dev nD) (t : Fin cfg5.N) (h1 : t.val % 342 = 341) (xs0 : Vec F S2048x256 .f32) :=
  kernelRun2_C c (grid5.coords t) (ms5_0 t) (hs5_0 t) (ms5_1 t) (hs5_1 t) (ms5_2 t) (hs5_2 t) (ms5_3 t) (hs5_3 t) scM5_0 (Memref.isWhole_whole _) (fun h => by have := (hcond5_0 t).mp h; omega) ((hcond5_1 t).mpr h1) (iblk5 V c 0 t) (iblk5 V c 1 t) (iblk5 V c 2 t) xs0

-- The contents a run's two lists of pieces determine.
def ends5 {P : List (View.Piece (Elt F) S2048x256 .f32) → List (View.Piece (Elt F) S2048x256 .f32) → Prop} (r : Σ' L3, { LS0 // P L3 LS0 }) : Vec F S2048x256 .f32 × Vec F S2048x256 .f32 :=
  (View.canon r.1, View.canon r.2.1)

-- After point n: the sum restarts where n ≡ 0 (mod 342), else continues from point n - 1.
def outsAt5 (c : Dev nD) (n : ℕ) (hn : n < cfg5.N) : Vec F S2048x256 .f32 × Vec F S2048x256 .f32 :=
  if h0 : n % 342 = 0 then ends5 (runA5 V c ⟨n, hn⟩ h0)
  else if h1 : n % 342 = 341 then ends5 (runC5 V c ⟨n, hn⟩ h1 (outsAt5 c (n - 1) (by omega)).2)
  else ends5 (runB5 V c ⟨n, hn⟩ h0 h1 (outsAt5 c (n - 1) (by omega)).2)

theorem outsAt5_A (c : Dev nD) (t : Fin cfg5.N) (h0 : t.val % 342 = 0) : outsAt5 V c t.val t.isLt = ends5 (runA5 V c t h0) := by
  rw [outsAt5, dif_pos h0]

theorem outsAt5_B (c : Dev nD) (t : Fin cfg5.N) (h0 : ¬t.val % 342 = 0) (h1 : ¬t.val % 342 = 341) :
    outsAt5 V c t.val t.isLt = ends5 (runB5 V c t h0 h1 (outsAt5 V c (t.val - 1) (by omega)).2) := by
  rw [outsAt5, dif_neg h0, dif_neg h1]

theorem outsAt5_C (c : Dev nD) (t : Fin cfg5.N) (h1 : t.val % 342 = 341) :
    outsAt5 V c t.val t.isLt = ends5 (runC5 V c t h1 (outsAt5 V c (t.val - 1) (by omega)).2) := by
  rw [outsAt5, dif_neg (by omega), dif_pos h1]

-- The accumulator before point n.
def acc5 (c : Dev nD) : (n : ℕ) → n ≤ cfg5.N → sProp 𝕄
  | 0, _ => iprop(∃ d, owns (c : Thread nD τ) scM5_0 fullShare d)
  | n + 1, hn => owns (c : Thread nD τ) scM5_0 fullShare (outsAt5 V c n hn).2

theorem acc5_pos (c : Dev nD) (n : ℕ) (h : n ≤ cfg5.N) (hz : n ≠ 0) :
    acc5 V c n h = owns (c : Thread nD τ) scM5_0 fullShare (outsAt5 V c (n - 1) (by omega)).2 := by
  cases n with
  | zero => exact absurd rfl hz
  | succ n => rfl

theorem acc5_any (c : Dev nD) (n : ℕ) (h : n ≤ cfg5.N) : acc5 V c n h ⊢ iprop(∃ d, owns (c : Thread nD τ) scM5_0 fullShare d) := by
  cases n with
  | zero => exact Entails.refl _
  | succ n => unfold acc5; iintro H; iexists _; iexact H

-- The region invariant around the accumulator's assertion P.
def inv5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := inv5 c (acc5 V c t.val (Nat.le_of_lt_succ t.isLt))
  q _ := fullShare
  owed _ := 0

theorem A_eq5 (c : Dev nD) (w : Fin cfg5.W) : (dat5 V c).A w = V c (Pipeline.arrRef spec5 w) := rfl

theorem before5 (c : Dev nD) (t : Fin cfg5.N) : (∀ d, (dat5 V c).before 0 t d = iblk5 V c 0 t)
    ∧ (∀ d, (dat5 V c).before 1 t d = iblk5 V c 1 t) ∧ ∀ d, (dat5 V c).before 2 t d = iblk5 V c 2 t := by
  refine ⟨?_, ?_, ?_⟩ <;> exact fun d => (Dat.before_in_eq_fetched _ _ rfl (fun _ => rfl) (fun _ _ _ => rfl) (fun _ => rfl) t d).trans rfl

-- The output block is stored only where t ≡ 341 (mod 342).
theorem idle5_3 (t : Fin cfg5.N) (h1 : ¬t.val % 342 = 341) : cfg5.idle 3 (grid5.coords t) = true := by
  show (!(k5_cond2 _ == 1#1)) = true; rw [beq_eq_false_iff_ne.mpr (mt (hcond5_1 t).mp h1)]; rfl

-- Tiling pieces determine the contents, whatever was there before.
theorem wrote5 (c : Dev nD) (m : Memref sig .tc .vmem S2048x256 .f32) (L : List (View.Piece (Elt F) S2048x256 .f32)) (h : View.Piece.tiledL L S2048x256.size = true) :
    (iprop(∃ f, m.view.loc (c : Thread nD τ) ↦[m.view.set]{fullShare} m.view.writes (Elt F) f L) : sProp 𝕄) ⊢ owns (c : Thread nD τ) m fullShare (View.canon L) := by
  iintro ⟨%f, H⟩; unfold owns; iexists m.view.writes (Elt F) f L; isplitr
  · ipureintro; exact View.read_writes_eq_canon _ _ _ (View.cover_of_tiledL L _ h)
  iexact H

theorem sound_body5 (c : Dev nD) (t : Fin cfg5.N) :
    iprop(inv5 c (acc5 V c t.val (Nat.le_of_lt t.isLt)) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d))
      ∗ (∃ d, owns (c : Thread nD τ) (ms5_3 t) fullShare ((dat5 V c).before 3 t d)))
    ⊢ wp frame (wpE (defs₀ (F := F)) Variants.none c none) Set.univ (bodyAt5 t) fun _ =>
      iprop(inv5 c (owns (c : Thread nD τ) scM5_0 fullShare (outsAt5 V c t.val t.isLt).2) ∗ (dat5 V c).owesAt () t.castSucc
        ∗ owns (c : Thread nD τ) (ms5_0 t) fullShare (iblk5 V c 0 t)
        ∗ owns (c : Thread nD τ) (ms5_1 t) fullShare (iblk5 V c 1 t)
        ∗ owns (c : Thread nD τ) (ms5_2 t) fullShare (iblk5 V c 2 t)
        ∗ (dat5 V c).leavesExact 3 t) := by
  simp only [(before5 V c t).1, (before5 V c t).2.1, (before5 V c t).2.2]
  unfold inv5 bodyAt5
  rcases (by omega : t.val % 342 = 341 ∨ t.val % 342 = 0 ∨ ¬t.val % 342 = 0 ∧ ¬t.val % 342 = 341) with h1 | h0 | ⟨h0, h1⟩
  on_goal 1 =>
    rw [show (dat5 V c).leavesExact 3 t = owns (c : Thread nD τ) (ms5_3 t) fullShare (outsAt5 V c t.val t.isLt).1 from by
      unfold Dat.leavesExact; rw [show cfg5.idle 3 (grid5.coords t) = false from by show (!(k5_cond2 _ == 1#1)) = false; rw [(hcond5_1 t).mpr h1]; rfl]; rfl,
      outsAt5_C V c t h1, acc5_pos V c t.val _ (by omega)]
  on_goal 2 =>
    rw [Dat.leavesExact_idle (dat5 V c) 3 t (idle5_3 t (by omega)) (Bool.eq_false_iff.mpr (mt (flush5_3 t).mp (by omega))), outsAt5_A V c t h0]
  on_goal 3 =>
    rw [Dat.leavesExact_idle (dat5 V c) 3 t (idle5_3 t h1) (Bool.eq_false_iff.mpr (mt (flush5_3 t).mp h1)), outsAt5_B V c t h0 h1, acc5_pos V c t.val _ (by omega)]
  all_goals
    unfold ends5; dsimp only
    iintro ⟨⟨⟨HS0, HR⟩, Hg⟩, Ho, ⟨%d0, H0⟩, ⟨%d1, H1⟩, ⟨%d2, H2⟩, ⟨%d3, H3⟩⟩
  on_goal 1 =>
    iapply (runC5 V c t h1 _).2.2 Set.univ _
    iframe H0 H1 H2
    isplitl [H3]; · iexists _; iexact H3
    iframe HS0
  on_goal 2 =>
    iapply (runA5 V c t h0).2.2 _ Set.univ _
    iframe H0 H1 H2
    isplitl [H3]; · iexact H3
    isplitl [HS0]; · iapply acc5_any V c _ _ $$ HS0
  on_goal 3 =>
    iapply (runB5 V c t h0 h1 _).2.2 _ Set.univ _
    iframe H0 H1 H2
    isplitl [H3]; · iexact H3
    iframe HS0
  all_goals
    iintro ⟨H0, H1, H2, H3, HS0⟩
    iframe HR Hg Ho H0 H1 H2
    isplitl [HS0]
    · iapply wrote5 c _ _ (by sl_kernel_rfl) $$ HS0
    first | iapply wrote5 c _ _ (by sl_kernel_rfl) $$ H3 | (iexists _; iexact H3)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Entails.of_eq (PhiA5_eq c)

theorem hout5 (c : Dev nD) : (dat5 V c).Φ (Fin.last cfg5.N) ⊢ Pipeline.ΦA spec5 c := by
  rw [PhiA5_eq]
  exact sep_mono_left (sep_mono_left (acc5_any V c _ _))

end Cert.Kernel.Hand

end
-- ==== Proof.K.Reg6.lean ====
import proofs.«146792_j51445118271859_1_alg».proof.Proof.Gen.Kernel.Launch
import proofs.«146792_j51445118271859_1_alg».proof.Proof.Gen.Kernel.Skeleton
import proofs.«146792_j51445118271859_1_alg».proof.Proof.Gen.Kernel.Points
import Idealize.ShloMosaic.Lib.Pipeline.FrameBody
import Idealize.ShloMosaic.Lib.Pipeline.TableIdle
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem zeros6 : (![0, 0] : Fin 2 → Nat) = fun _ => 0 := by decide

-- Run on inputs equal to x0, x1 and x2, the body keeps all three and leaves k6_pay1 x0 x1 x2 as its output.
theorem sound_kernel6 (c : Dev nD) (i : grid6.Coords) (E : Set ℕ) {a1 : Memref sig .tc .vmem S2048x256 .f32} (h1 : a1.IsWhole)
    {a2 : Memref sig .tc .vmem S256x32 .f32} (h2 : a2.IsWhole) {a3 : Memref sig .tc .vmem S1x32 .f32} (h3 : a3.IsWhole)
    {a4 : Memref sig .tc .vmem S2048x32 .f32} (h4 : a4.IsWhole) {x0 : Vec F S2048x256 .f32} {x1 : Vec F S256x32 .f32}
    {x2 : Vec F S1x32 .f32} {b0 : Vec F S2048x256 .f32 → Vec F S2048x256 .f32} {b1 : Vec F S256x32 .f32 → Vec F S256x32 .f32}
    {b2 : Vec F S1x32 .f32 → Vec F S1x32 .f32} (e0 : ∀ d, b0 d = x0) (e1 : ∀ d, b1 d = x1) (e2 : ∀ d, b2 d = x2)
    (g : Vec F S2048x32 .f32 → Vec F S2048x32 .f32) :
    (iprop((∃ d, owns c.tc a1 fullShare (b0 d)) ∗ (∃ d, owns c.tc a2 fullShare (b1 d)) ∗ (∃ d, owns c.tc a3 fullShare (b2 d))
        ∗ (∃ d, owns c.tc a4 fullShare (g d))) : sProp (MT nD τ sig Unit (Elt F) ℕ (UR sig nD τ) ℕ))
      ⊢ wp frame (wpE (defs₀ (F := F)) Variants.none c none) E (cc6__linear_bias_kernel i a1 h1 a2 h2 a3 h3 a4 h4) fun _ =>
        iprop(owns c.tc a1 fullShare x0 ∗ owns c.tc a2 fullShare x1 ∗ owns c.tc a3 fullShare x2
          ∗ owns c.tc a4 fullShare (k6_pay1 x0 x1 x2)) := by
  simp only [e0, e1, e2]
  rw [cc6__linear_bias_kernel_eq_skeleton, owns_eq_rep, owns_eq_rep, owns_eq_rep]; unfold cc6__linear_bias_kernel_skel owns
  iintro ⟨⟨%_, H0⟩, ⟨%_, H1⟩, ⟨%_, H2⟩, %d, %f, -, H3⟩
  sl_exec
  sl_step
  iframe H0 H1 H2
  iexists _
  iframe H3
  ipureintro
  rw [View.readAt_eq_ld, View.readAt_eq_ld, View.readAt_eq_ld, View.read_rep, View.read_rep, View.read_rep,
    View.ld_unit_zero (S := S2048x256) zeros6, View.ld_unit_zero (S := S256x32) zeros6, View.ld_unit_zero (S := S1x32) zeros6]
  exact (View.read_writes_eq_canon _ _ _ (View.cover_of_tiled _ S2048x32.size (by rfl))).trans (View.canon_unit_zero zeros6 _ _)

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay1 (iblk6 V c 0 t) (iblk6 V c 1 t) (iblk6 V c 2 t)
  Φ _ := Pipeline.ΦA spec6 c
  q _ := fullShare
  owed _ := 0

theorem A_eq6 (w : Fin cfg6.W) : (dat6 V c).A w = V c (Pipeline.arrRef spec6 w) := rfl

variable (t : Fin cfg6.N)

theorem before6_0 (d) : (dat6 V c).before 0 t d = iblk6 V c 0 t :=
  (dat6 V c).before_in_eq_fetched 0 rfl (fun _ => rfl) (fun _ _ _ => rfl) (fun _ => rfl) t d
theorem before6_1 (d) : (dat6 V c).before 1 t d = iblk6 V c 1 t :=
  (dat6 V c).before_in_eq_fetched 1 rfl (fun _ => rfl) (fun _ _ _ => rfl) (fun _ => rfl) t d
theorem before6_2 (d) : (dat6 V c).before 2 t d = iblk6 V c 2 t :=
  (dat6 V c).before_in_eq_fetched 2 rfl (fun _ => rfl) (fun _ _ _ => rfl) (fun _ => rfl) t d

theorem body_obligation6 : BodyObligation (dat6 (F := F) V c) (defs₀ (F := F)) Variants.none () Set.univ := fun t => by
  rw [bigSep_W6, bigSep_W6]
  show _ ⊢ wp _ _ _ (bodyAt6 t) _
  exact (sep_mono_right (sep_mono_right (sound_kernel6 c _ Set.univ _ _ _ _ (before6_0 V c t) (before6_1 V c t) (before6_2 V c t) _))).trans
    ((sep_mono_right (wp_frame_l _ _ _)).trans (wp_frame_l _ _ _))

end Cert.Kernel.Hand

end
-- ==== Proof.KI.Reg0.lean ====
import proofs.«146792_j51445118271859_1_alg».proof.Proof.Gen.KernelIdeal.Launch
import proofs.«146792_j51445118271859_1_alg».proof.Proof.Gen.KernelIdeal.Skeleton
import proofs.«146792_j51445118271859_1_alg».proof.Proof.Gen.KernelIdeal.Points
import Idealize.ShloMosaic.Lib.Pipeline.FrameBody
import Idealize.ShloMosaic.Lib.Pipeline.TableIdle
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem zeros0 : (![0, 0] : Fin 2 → Nat) = fun _ => 0 := by decide

-- Run on inputs equal to x0 and x1, the body keeps both and leaves k0_pay1 x0 x1 as its output.
theorem sound_kernel0 (c : Dev nD) (i : grid0.Coords) (E : Set ℕ) {a1 : Memref sig .tc .vmem S2048x128 .f32} (h1 : a1.IsWhole)
    {a2 : Memref sig .tc .vmem S128x256 .f32} (h2 : a2.IsWhole) {a3 : Memref sig .tc .vmem S2048x256 .f32} (h3 : a3.IsWhole)
    {x0 : Vec F S2048x128 .f32} {x1 : Vec F S128x256 .f32} {b0 : Vec F S2048x128 .f32 → Vec F S2048x128 .f32}
    {b1 : Vec F S128x256 .f32 → Vec F S128x256 .f32} (e0 : ∀ d, b0 d = x0) (e1 : ∀ d, b1 d = x1)
    (g : Vec F S2048x256 .f32 → Vec F S2048x256 .f32) :
    (iprop((∃ d, owns c.tc a1 fullShare (b0 d)) ∗ (∃ d, owns c.tc a2 fullShare (b1 d)) ∗ (∃ d, owns c.tc a3 fullShare (g d))) : sProp (MT nD τ sig Unit (Elt F) ℕ (UR sig nD τ) ℕ))
      ⊢ wp frame (wpE (defs₀ (F := F)) Variants.none c none) E (cc0__linear_kernel i a1 h1 a2 h2 a3 h3) fun _ =>
        iprop(owns c.tc a1 fullShare x0 ∗ owns c.tc a2 fullShare x1 ∗ owns c.tc a3 fullShare (k0_pay1 x0 x1)) := by
  simp only [e0, e1]
  rw [cc0__linear_kernel_eq_skeleton, owns_eq_rep, owns_eq_rep]; unfold cc0__linear_kernel_skel owns
  iintro ⟨⟨%_, H0⟩, ⟨%_, H1⟩, %d, %f, -, H2⟩
  sl_exec
  sl_step
  iframe H0 H1
  iexists _
  iframe H2
  ipureintro
  rw [View.readAt_eq_ld, View.readAt_eq_ld, View.read_rep, View.read_rep, View.ld_unit_zero (S := S2048x128) zeros0,
    View.ld_unit_zero (S := S128x256) zeros0]
  exact (View.read_writes_eq_canon _ _ _ (View.cover_of_tiled _ S2048x256.size (by rfl))).trans (View.canon_unit_zero zeros0 _ _)

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

variable (t : Fin cfg0.N)

theorem before0_0 (d) : (dat0 V c).before 0 t d = iblk0 V c 0 t :=
  (dat0 V c).before_in_eq_fetched 0 rfl (fun _ => rfl) (fun _ _ _ => rfl) (fun _ => rfl) t d
theorem before0_1 (d) : (dat0 V c).before 1 t d = iblk0 V c 1 t :=
  (dat0 V c).before_in_eq_fetched 1 rfl (fun _ => rfl) (fun _ _ _ => rfl) (fun _ => rfl) t d

theorem body_obligation0 : BodyObligation (dat0 (F := F) V c) (defs₀ (F := F)) Variants.none () Set.univ := fun t => by
  rw [bigSep_W0, bigSep_W0]
  show _ ⊢ wp _ _ _ (bodyAt0 t) _
  exact (sep_mono_right (sep_mono_right (sound_kernel0 c _ Set.univ _ _ _ (before0_0 V c t) (before0_1 V c t) _))).trans
    ((sep_mono_right (wp_frame_l _ _ _)).trans (wp_frame_l _ _ _))

end Cert.KernelIdeal.Hand

end
-- ==== Proof.KI.Reg1.Runs.lean ====
import proofs.«146792_j51445118271859_1_alg».proof.Proof.Gen.KernelIdeal.Launch
import proofs.«146792_j51445118271859_1_alg».proof.Proof.Gen.KernelIdeal.Skeleton
import proofs.«146792_j51445118271859_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem coord1_1 (t : Fin grid1.N) : (grid1.coords t 1).val = t.val % 25 := by
  show t.val / grid1.stride 1 % 25 = t.val % 25
  rw [show grid1.stride 1 = 1 from by decide, Nat.div_one]

theorem cond1_0_coord : ∀ v : Fin 25,
    (Scalar.cmpi .ne (Scalar.extui (Scalar.cmpi .eq (BitVec.ofNat 32 v.val) 0#32)) 0#32) = 1#1 ↔ v.val = 0 := by decide +kernel

theorem hcond1_0 : ∀ t : Fin cfg1.N, cond1_0 (grid1.coords t) ↔ t.val % 25 = 0 := fun t =>
  (show cond1_0 (grid1.coords t) ↔ (grid1.coords t 1).val = 0 from cond1_0_coord (grid1.coords t 1)).trans (by rw [coord1_1 t])

abbrev cond1_1 (i : grid1.Coords) : Prop := k1_cond2 i = 1#1

theorem cond1_1_coord : ∀ v : Fin 25,
    (Scalar.cmpi .ne (Scalar.extui (Scalar.cmpi .eq (BitVec.ofNat 32 v.val) 24#32)) 0#32) = 1#1 ↔ v.val = 24 := by decide +kernel

theorem hcond1_1 : ∀ t : Fin cfg1.N, cond1_1 (grid1.coords t) ↔ t.val % 25 = 24 := fun t =>
  (show cond1_1 (grid1.coords t) ↔ (grid1.coords t 1).val = 24 from cond1_1_coord (grid1.coords t 1)).trans (by rw [coord1_1 t])

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := by
  intro t h
  show (!(k1_cond2 (grid1.coords t) == 1#1)) = true
  rw [Bool.not_eq_true', beq_eq_false_iff_ne]; exact h

theorem noFlush1_3 : ∀ t : Fin cfg1.N, ¬cond1_1 (grid1.coords t) → (cfg1.win 3).flush t = false := by
  intro t h
  have h24 : ¬t.val % 25 = 24 := fun e => h ((hcond1_1 t).mpr e)
  cases hf : (cfg1.win 3).flush t with
  | false => rfl
  | true => exact absurd ((flush1_3 t).mp hf) h24

theorem liveAt1_3 : ∀ t : Fin cfg1.N, cond1_1 (grid1.coords t) → cfg1.idle 3 (grid1.coords t) = false := by
  intro t h
  show (!(k1_cond2 (grid1.coords t) == 1#1)) = false
  rw [Bool.not_eq_false', beq_iff_eq]; exact h

abbrev ms1_0 (t : Fin cfg1.N) : Memref sig .tc .vmem S1024x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)

abbrev scM1_0 : Memref sig .tc .vmem S1024x256 .f32 := Memref.whole cc1_scratch0

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.Reg1.RunA.lean ====
import proofs.«146792_j51445118271859_1_alg».proof.Proof.KI.Reg1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg2 : Memref sig .tc .vmem S1024x1 .i32) (harg2 : arg2.IsWhole) (arg3 : Memref sig .tc .vmem S1024x1 .f32) (harg3 : arg3.IsWhole) (arg4 : Memref sig .tc .vmem S2048x256 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x1 .i32) (x1 : Vec F S1024x1 .f32) (x2 : Vec F S2048x256 .f32) :
    Σ' (L3 : List (View.Piece (Elt F) S1024x256 .bf16)), { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg1.RunB.lean ====
import proofs.«146792_j51445118271859_1_alg».proof.Proof.KI.Reg1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg2 : Memref sig .tc .vmem S1024x1 .i32) (harg2 : arg2.IsWhole) (arg3 : Memref sig .tc .vmem S1024x1 .f32) (harg3 : arg3.IsWhole) (arg4 : Memref sig .tc .vmem S2048x256 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x1 .i32) (x1 : Vec F S1024x1 .f32) (x2 : Vec F S2048x256 .f32) (xs0 : Vec F S1024x256 .f32) :
    Σ' (L3 : List (View.Piece (Elt F) S1024x256 .bf16)), { LS0 : List (View.Piece (Elt F) S1024x256 .f32) //
      ∀ (xi3 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg1.RunC.lean ====
import proofs.«146792_j51445118271859_1_alg».proof.Proof.KI.Reg1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_C (c : Dev nD) (i : grid1.Coords) (arg2 : Memref sig .tc .vmem S1024x1 .i32) (harg2 : arg2.IsWhole) (arg3 : Memref sig .tc .vmem S1024x1 .f32) (harg3 : arg3.IsWhole) (arg4 : Memref sig .tc .vmem S2048x256 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x1 .i32) (x1 : Vec F S1024x1 .f32) (x2 : Vec F S2048x256 .f32) (xs0 : Vec F S1024x256 .f32) :
    Σ' (L3 : List (View.Piece (Elt F) S1024x256 .bf16)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg1.lean ====
import proofs.«146792_j51445118271859_1_alg».proof.Proof.KI.Reg1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The contents a run's two lists of pieces determine: the output block's and the accumulator's.
def outs1 {P : List (View.Piece (Elt F) S1024x256 .bf16) → List (View.Piece (Elt F) S1024x256 .f32) → Prop}
    (r : Σ' L3, { LS0 // P L3 LS0 }) : Vec F S1024x256 .bf16 × Vec F S1024x256 .f32 := (View.canon r.1, View.canon r.2.1)

variable (c : Dev nD) (t : Fin cfg1.N)

-- The three cases of the body at grid point t (a: the accumulator's contents on entry).
def runA1 (h0 : t.val % 25 = 0) :=
  kernelRun1_A c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => absurd ((hcond1_1 t).mp h) (by omega)) (iblk1 V c 0 t) (iblk1 V c 1 t) (iblk1 V c 2 t)
def runB1 (h0 : ¬t.val % 25 = 0) (h1 : ¬t.val % 25 = 24) (a : Vec F S1024x256 .f32) :=
  kernelRun1_B c (grid1.coords t) (ms1_0 t) (hs1_0 t) (ms1_1 t) (hs1_1 t) (ms1_2 t) (hs1_2 t) (ms1_3 t) (hs1_3 t) scM1_0 (Memref.isWhole_whole _)
    (mt (hcond1_0 t).mp h0) (mt (hcond1_1 t).mp h1) (iblk1 V c 0 t) (iblk1 V c 1 t) (iblk1 V c 2 t) a
def runC1 (h1 : t.val % 25 = 24) (a : Vec F S1024x256 .f32) :=
  kernelRun1_C c (grid1.coords t) (ms1_0 t) (hs1_0 t) (ms1_1 t) (hs1_1 t) (ms1_2 t) (hs1_2 t) (ms1_3 t) (hs1_3 t) scM1_0 (Memref.isWhole_whole _)
    (fun h => absurd ((hcond1_0 t).mp h) (by omega)) ((hcond1_1 t).mpr h1) (iblk1 V c 0 t) (iblk1 V c 1 t) (iblk1 V c 2 t) a

-- What the output block and the accumulator hold after position n: the case n % 25 selects, over what position n - 1 left.
def outsAt1 (c : Dev nD) : (n : ℕ) → n < cfg1.N → Vec F S1024x256 .bf16 × Vec F S1024x256 .f32
  | 0, hn => outs1 (runA1 V c ⟨0, hn⟩ (Nat.zero_mod 25))
  | n + 1, hn =>
    if h0 : (n + 1) % 25 = 0 then outs1 (runA1 V c ⟨n + 1, hn⟩ h0)
    else if h1 : (n + 1) % 25 = 24 then outs1 (runC1 V c ⟨n + 1, hn⟩ h1 (outsAt1 c n (Nat.lt_of_succ_lt hn)).2)
    else outs1 (runB1 V c ⟨n + 1, hn⟩ h0 h1 (outsAt1 c n (Nat.lt_of_succ_lt hn)).2)

-- The accumulator's contents on entry to a point that is not the first.
abbrev prev1 : Vec F S1024x256 .f32 := (outsAt1 V c (t.val - 1) (Nat.lt_of_le_of_lt (Nat.sub_le _ _) t.isLt)).2

theorem outsAt1_A (h0 : t.val % 25 = 0) : outsAt1 V c t.val t.isLt = outs1 (runA1 V c t h0) := by
  obtain ⟨n, hn⟩ := t
  cases n with
  | zero => rfl
  | succ n => exact dif_pos h0

theorem outsAt1_B (h0 : ¬t.val % 25 = 0) (h1 : ¬t.val % 25 = 24) : outsAt1 V c t.val t.isLt = outs1 (runB1 V c t h0 h1 (prev1 V c t)) := by
  obtain ⟨n, hn⟩ := t
  cases n with
  | zero => exact absurd (Nat.zero_mod 25) h0
  | succ n => exact (dif_neg h0).trans (dif_neg h1)

theorem outsAt1_C (h1 : t.val % 25 = 24) : outsAt1 V c t.val t.isLt = outs1 (runC1 V c t h1 (prev1 V c t)) := by
  obtain ⟨n, hn⟩ := t
  cases n with
  | zero => exact absurd h1 (show ¬(0 % 25 = 24) by decide)
  | succ n => exact (dif_neg fun e => absurd (e.symm.trans h1) (show ¬(0 = 24) by decide)).trans (dif_pos h1)

-- The region invariant around the accumulator's assertion P.
def inv1 (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

-- The region invariant before position n: the accumulator at what position n - 1 left (at anything before the first).
def PhiS1 (c : Dev nD) : (n : ℕ) → n ≤ cfg1.N → sProp 𝕄
  | 0, _ => Pipeline.ΦA spec1 c
  | n + 1, hn => inv1 c (owns (c : Thread nD τ) scM1_0 fullShare (outsAt1 V c n hn).2)

theorem PhiS1_pos (n : ℕ) (h : n ≤ cfg1.N) (hz : n ≠ 0) :
    PhiS1 V c n h = inv1 c (owns (c : Thread nD τ) scM1_0 fullShare (outsAt1 V c (n - 1) (by omega)).2) := by
  cases n with
  | zero => exact absurd rfl hz
  | succ n => rfl

-- At every position the invariant gives the accumulator at some contents.
theorem PhiS1_any (n : ℕ) (h : n ≤ cfg1.N) : PhiS1 V c n h ⊢ inv1 c iprop(∃ d, owns (c : Thread nD τ) scM1_0 fullShare d) := by
  cases n with
  | zero => rw [show PhiS1 V c 0 h = Pipeline.ΦA spec1 c from rfl, PhiA1_eq]; exact .rfl
  | succ n =>
    unfold PhiS1 inv1
    iintro ⟨⟨HS0, Hr⟩, Hg⟩
    iframe Hr Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 : (dat1 V c).after 3 t = (outsAt1 V c t.val t.isLt).1 := rfl

-- Pieces that tile a block determine its contents, whatever it held before.
theorem written1 {s : Shape} {e : EltTy} (M : Memref sig .tc .vmem s e) (L : List (View.Piece (Elt F) s e))
    (hL : View.Piece.tiledL L s.size = true) (f : Buf (Elt F) (M.view.loc (c : Thread nD τ))) :
    (M.view.loc (c : Thread nD τ) ↦[M.view.set]{fullShare} M.view.writes (Elt F) f L : sProp 𝕄) ⊢ owns (c : Thread nD τ) M fullShare (View.canon L) := by
  iintro H; unfold owns; iexists M.view.writes (Elt F) f L; isplitr
  · ipureintro; exact View.read_writes_eq_canon _ _ _ (View.cover_of_tiledL L _ hL)
  iexact H

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 : (dat1 V c).leavesExact 0 t = owns (c : Thread nD τ) (ms1_0 t) fullShare (iblk1 V c 0 t) :=
  show _ = owns (c : Thread nD τ) (ms1_0 t) fullShare ((dat1 V c).after 0 t) from by unfold Dat.leavesExact; rw [liveAt1_0 t]
theorem leaves1_1 : (dat1 V c).leavesExact 1 t = owns (c : Thread nD τ) (ms1_1 t) fullShare (iblk1 V c 1 t) :=
  show _ = owns (c : Thread nD τ) (ms1_1 t) fullShare ((dat1 V c).after 1 t) from by unfold Dat.leavesExact; rw [liveAt1_1 t]
theorem leaves1_2 : (dat1 V c).leavesExact 2 t = owns (c : Thread nD τ) (ms1_2 t) fullShare (iblk1 V c 2 t) :=
  show _ = owns (c : Thread nD τ) (ms1_2 t) fullShare ((dat1 V c).after 2 t) from by unfold Dat.leavesExact; rw [liveAt1_2 t]

theorem leaves1_3 (h1 : t.val % 25 = 24) : (dat1 V c).leavesExact 3 t = owns (c : Thread nD τ) (ms1_3 t) fullShare (outsAt1 V c t.val t.isLt).1 :=
  show _ = owns (c : Thread nD τ) (ms1_3 t) fullShare ((dat1 V c).after 3 t) from by unfold Dat.leavesExact; rw [liveAt1_3 t ((hcond1_1 t).mpr h1)]

theorem leaves_out1 (h1 : ¬t.val % 25 = 24) :
    (dat1 V c).leavesExact 3 t = iprop(∃ d, owns (c : Thread nD τ) (ms1_3 t) fullShare ((dat1 V c).before 3 t d)) :=
  Dat.leavesExact_idle (dat1 V c) 3 t (idleAt1_3 t (mt (hcond1_1 t).mp h1)) (noFlush1_3 t (mt (hcond1_1 t).mp h1))

theorem sound_body1 :
    bodyPre1 V c t ⊢ wp frame (wpE (defs₀ (F := F)) Variants.none c none) Set.univ (bodyAt1 t) (fun _ => bodyPost1 V c t) := by
  unfold bodyPre1 bodyPost1 bodyAt1
  simp only [before1_0_of V (dat1 V c) rfl (fun _ => rfl), before1_1_of V (dat1 V c) rfl (fun _ => rfl), before1_2_of V (dat1 V c) rfl (fun _ => rfl)]
  rw [show (dat1 V c).owesAt () t.succ = (dat1 V c).owesAt () t.castSucc from rfl,
    show (dat1 V c).Φ t.succ = inv1 c (owns (c : Thread nD τ) scM1_0 fullShare (outsAt1 V c t.val t.isLt).2) from rfl,
    leaves1_0, leaves1_1, leaves1_2, show (dat1 V c).Φ t.castSucc = PhiS1 V c t.val (Nat.le_of_lt t.isLt) from rfl]
  by_cases h0 : t.val % 25 = 0
  · rw [leaves_out1 V c t (by omega), outsAt1_A V c t h0]
    unfold outs1; dsimp only
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    unfold inv1
    icases HΦ' with ⟨⟨HS0, Hr⟩, Hg⟩
    iapply ((runA1 V c t h0).2.2 ((dat1 V c).before 3 t d3) Set.univ _)
    iframe H0 H1 H2 H3 HS0
    iintro ⟨H0, H1, H2, H3, ⟨%es0, HS0⟩⟩
    ihave HS := (written1 c scM1_0 (runA1 V c t h0).2.1 (by sl_kernel_rfl) _) $$ HS0
    iframe
    iexists _; iexact H3
  · have hz : t.val ≠ 0 := fun e => h0 (by rw [e])
    rw [PhiS1_pos V c _ _ hz]
    unfold inv1
    by_cases h1 : t.val % 25 = 24
    · rw [leaves1_3 V c t h1, outsAt1_C V c t h1]
      unfold outs1; dsimp only
      iintro ⟨⟨⟨HS0, Hr⟩, Hg⟩, Ho, ⟨%d0, H0⟩, ⟨%d1, H1⟩, ⟨%d2, H2⟩, ⟨%d3, H3⟩⟩
      iapply ((runC1 V c t h1 (prev1 V c t)).2.2 Set.univ _)
      iframe H0 H1 H2 HS0
      isplitl [H3]; · iexists _; iexact H3
      iintro ⟨H0, H1, H2, ⟨%e3, H3⟩, ⟨%es0, HS0⟩⟩
      ihave HS := (written1 c scM1_0 (runC1 V c t h1 (prev1 V c t)).2.1 (by sl_kernel_rfl) _) $$ HS0
      ihave HO := (written1 c (ms1_3 t) (runC1 V c t h1 (prev1 V c t)).1 (by sl_kernel_rfl) _) $$ H3
      iframe
    · rw [leaves_out1 V c t h1, outsAt1_B V c t h0 h1]
      unfold outs1; dsimp only
      iintro ⟨⟨⟨HS0, Hr⟩, Hg⟩, Ho, ⟨%d0, H0⟩, ⟨%d1, H1⟩, ⟨%d2, H2⟩, ⟨%d3, H3⟩⟩
      iapply ((runB1 V c t h0 h1 (prev1 V c t)).2.2 ((dat1 V c).before 3 t d3) Set.univ _)
      iframe H0 H1 H2 H3 HS0
      iintro ⟨H0, H1, H2, H3, ⟨%es0, HS0⟩⟩
      ihave HS := (written1 c scM1_0 (runB1 V c t h0 h1 (prev1 V c t)).2.1 (by sl_kernel_rfl) _) $$ HS0
      iframe
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]; exact PhiS1_any V c (Fin.last cfg1.N).val _

end Cert.KernelIdeal.Hand

end
-- ==== Proof.KI.Reg2.Runs.lean ====
import proofs.«146792_j51445118271859_1_alg».proof.Proof.Gen.KernelIdeal.Launch
import proofs.«146792_j51445118271859_1_alg».proof.Proof.Gen.KernelIdeal.Skeleton
import proofs.«146792_j51445118271859_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem coord2_1 (t : Fin grid2.N) : (grid2.coords t 1).val = t.val % 342 := by
  show t.val / grid2.stride 1 % 342 = t.val % 342
  rw [show grid2.stride 1 = 1 from by decide, Nat.div_one]

theorem cond2_0_coord : ∀ v : Fin 342,
    (Scalar.cmpi .ne (Scalar.extui (Scalar.cmpi .eq (BitVec.ofNat 32 v.val) 0#32)) 0#32) = 1#1 ↔ v.val = 0 := by decide +kernel

theorem hcond2_0 : ∀ t : Fin cfg2.N, cond2_0 (grid2.coords t) ↔ t.val % 342 = 0 := fun t =>
  (show cond2_0 (grid2.coords t) ↔ (grid2.coords t 1).val = 0 from cond2_0_coord (grid2.coords t 1)).trans (by rw [coord2_1 t])

abbrev cond2_1 (i : grid2.Coords) : Prop := k2_cond2 i = 1#1

theorem cond2_1_coord : ∀ v : Fin 342,
    (Scalar.cmpi .ne (Scalar.extui (Scalar.cmpi .eq (BitVec.ofNat 32 v.val) 341#32)) 0#32) = 1#1 ↔ v.val = 341 := by decide +kernel

theorem hcond2_1 : ∀ t : Fin cfg2.N, cond2_1 (grid2.coords t) ↔ t.val % 342 = 341 := fun t =>
  (show cond2_1 (grid2.coords t) ↔ (grid2.coords t 1).val = 341 from cond2_1_coord (grid2.coords t 1)).trans (by rw [coord2_1 t])

abbrev ms2_0 (t : Fin cfg2.N) : Memref sig .tc .vmem S1x1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)

abbrev scM2_0 : Memref sig .tc .vmem S2048x256 .f32 := Memref.whole cc2_scratch0

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.Reg2.RunA.lean ====
import proofs.«146792_j51445118271859_1_alg».proof.Proof.KI.Reg2.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_A (c : Dev nD) (i : grid2.Coords) (arg2 : Memref sig .tc .vmem S1x1024 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S1x1024 .i32) (x1 : Vec F S1024x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg2.RunB.lean ====
import proofs.«146792_j51445118271859_1_alg».proof.Proof.KI.Reg2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_B (c : Dev nD) (i : grid2.Coords) (arg2 : Memref sig .tc .vmem S1x1024 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : ¬cond2_1 i)
    (x0 : Vec F S1x1024 .i32) (x1 : Vec F S1024x256 .bf16) (x2 : Vec F S1x256 .f32) (xs0 : Vec F S2048x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg2.RunC.lean ====
import proofs.«146792_j51445118271859_1_alg».proof.Proof.KI.Reg2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun2_C (c : Dev nD) (i : grid2.Coords) (arg2 : Memref sig .tc .vmem S1x1024 .i32) (harg2 : arg2.IsWhole) (arg3 : Memref sig .tc .vmem S1024x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S1x1024 .i32) (x1 : Vec F S1024x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg2.lean ====
import proofs.«146792_j51445118271859_1_alg».proof.Proof.KI.Reg2.RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body's three runs at grid point t.
def runA2 (c : Dev nD) (t : Fin cfg2.N) (h0 : t.val % 342 = 0) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => by have := (hcond2_1 t).mp h; omega) (iblk2 V c 0 t) (iblk2 V c 1 t) (iblk2 V c 2 t)

def runB2 (c : Dev nD) (t : Fin cfg2.N) (h0 : ¬t.val % 342 = 0) (h1 : ¬t.val % 342 = 341) (xs0 : Vec F S2048x256 .f32) :=
  kernelRun2_B c (grid2.coords t) (ms2_0 t) (hs2_0 t) (ms2_1 t) (hs2_1 t) (ms2_2 t) (hs2_2 t) (ms2_3 t) (hs2_3 t) scM2_0 (Memref.isWhole_whole _) (mt (hcond2_0 t).mp h0) (mt (hcond2_1 t).mp h1) (iblk2 V c 0 t) (iblk2 V c 1 t) (iblk2 V c 2 t) xs0

def runC2 (c : Dev nD) (t : Fin cfg2.N) (h1 : t.val % 342 = 341) (xs0 : Vec F S2048x256 .f32) :=
  kernelRun2_C c (grid2.coords t) (ms2_0 t) (hs2_0 t) (ms2_1 t) (hs2_1 t) (ms2_2 t) (hs2_2 t) (ms2_3 t) (hs2_3 t) scM2_0 (Memref.isWhole_whole _) (fun h => by have := (hcond2_0 t).mp h; omega) ((hcond2_1 t).mpr h1) (iblk2 V c 0 t) (iblk2 V c 1 t) (iblk2 V c 2 t) xs0

-- The contents a run's two lists of pieces determine.
def ends2 {P : List (View.Piece (Elt F) S2048x256 .f32) → List (View.Piece (Elt F) S2048x256 .f32) → Prop} (r : Σ' L3, { LS0 // P L3 LS0 }) : Vec F S2048x256 .f32 × Vec F S2048x256 .f32 :=
  (View.canon r.1, View.canon r.2.1)

-- After point n: the sum restarts where n ≡ 0 (mod 342), else continues from point n - 1.
def outsAt2 (c : Dev nD) (n : ℕ) (hn : n < cfg2.N) : Vec F S2048x256 .f32 × Vec F S2048x256 .f32 :=
  if h0 : n % 342 = 0 then ends2 (runA2 V c ⟨n, hn⟩ h0)
  else if h1 : n % 342 = 341 then ends2 (runC2 V c ⟨n, hn⟩ h1 (outsAt2 c (n - 1) (by omega)).2)
  else ends2 (runB2 V c ⟨n, hn⟩ h0 h1 (outsAt2 c (n - 1) (by omega)).2)

theorem outsAt2_A (c : Dev nD) (t : Fin cfg2.N) (h0 : t.val % 342 = 0) : outsAt2 V c t.val t.isLt = ends2 (runA2 V c t h0) := by
  rw [outsAt2, dif_pos h0]

theorem outsAt2_B (c : Dev nD) (t : Fin cfg2.N) (h0 : ¬t.val % 342 = 0) (h1 : ¬t.val % 342 = 341) :
    outsAt2 V c t.val t.isLt = ends2 (runB2 V c t h0 h1 (outsAt2 V c (t.val - 1) (by omega)).2) := by
  rw [outsAt2, dif_neg h0, dif_neg h1]

theorem outsAt2_C (c : Dev nD) (t : Fin cfg2.N) (h1 : t.val % 342 = 341) :
    outsAt2 V c t.val t.isLt = ends2 (runC2 V c t h1 (outsAt2 V c (t.val - 1) (by omega)).2) := by
  rw [outsAt2, dif_neg (by omega), dif_pos h1]

-- The accumulator before point n.
def acc2 (c : Dev nD) : (n : ℕ) → n ≤ cfg2.N → sProp 𝕄
  | 0, _ => iprop(∃ d, owns (c : Thread nD τ) scM2_0 fullShare d)
  | n + 1, hn => owns (c : Thread nD τ) scM2_0 fullShare (outsAt2 V c n hn).2

theorem acc2_pos (c : Dev nD) (n : ℕ) (h : n ≤ cfg2.N) (hz : n ≠ 0) :
    acc2 V c n h = owns (c : Thread nD τ) scM2_0 fullShare (outsAt2 V c (n - 1) (by omega)).2 := by
  cases n with
  | zero => exact absurd rfl hz
  | succ n => rfl

theorem acc2_any (c : Dev nD) (n : ℕ) (h : n ≤ cfg2.N) : acc2 V c n h ⊢ iprop(∃ d, owns (c : Thread nD τ) scM2_0 fullShare d) := by
  cases n with
  | zero => exact Entails.refl _
  | succ n => unfold acc2; iintro H; iexists _; iexact H

-- The region invariant around the accumulator's assertion P.
def inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := inv2 c (acc2 V c t.val (Nat.le_of_lt_succ t.isLt))
  q _ := fullShare
  owed _ := 0

theorem A_eq2 (c : Dev nD) (w : Fin cfg2.W) : (dat2 V c).A w = V c (Pipeline.arrRef spec2 w) := rfl

theorem before2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;> exact fun d => (Dat.before_in_eq_fetched _ _ rfl (fun _ => rfl) (fun _ _ _ => rfl) (fun _ => rfl) t d).trans rfl

-- The output block is stored only where t ≡ 341 (mod 342).
theorem idle2_3 (t : Fin cfg2.N) (h1 : ¬t.val % 342 = 341) : cfg2.idle 3 (grid2.coords t) = true := by
  show (!(k2_cond2 _ == 1#1)) = true; rw [beq_eq_false_iff_ne.mpr (mt (hcond2_1 t).mp h1)]; rfl

-- Tiling pieces determine the contents, whatever was there before.
theorem wrote2 (c : Dev nD) (m : Memref sig .tc .vmem S2048x256 .f32) (L : List (View.Piece (Elt F) S2048x256 .f32)) (h : View.Piece.tiledL L S2048x256.size = true) :
    (iprop(∃ f, m.view.loc (c : Thread nD τ) ↦[m.view.set]{fullShare} m.view.writes (Elt F) f L) : sProp 𝕄) ⊢ owns (c : Thread nD τ) m fullShare (View.canon L) := by
  iintro ⟨%f, H⟩; unfold owns; iexists m.view.writes (Elt F) f L; isplitr
  · ipureintro; exact View.read_writes_eq_canon _ _ _ (View.cover_of_tiledL L _ h)
  iexact H

theorem sound_body2 (c : Dev nD) (t : Fin cfg2.N) :
    iprop(inv2 c (acc2 V c t.val (Nat.le_of_lt t.isLt)) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) fun _ =>
      iprop(inv2 c (owns (c : Thread nD τ) scM2_0 fullShare (outsAt2 V c t.val t.isLt).2) ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t) := by
  simp only [(before2 V c t).1, (before2 V c t).2.1, (before2 V c t).2.2]
  unfold inv2 bodyAt2
  rcases (by omega : t.val % 342 = 341 ∨ t.val % 342 = 0 ∨ ¬t.val % 342 = 0 ∧ ¬t.val % 342 = 341) with h1 | h0 | ⟨h0, h1⟩
  on_goal 1 =>
    rw [show (dat2 V c).leavesExact 3 t = owns (c : Thread nD τ) (ms2_3 t) fullShare (outsAt2 V c t.val t.isLt).1 from by
      unfold Dat.leavesExact; rw [show cfg2.idle 3 (grid2.coords t) = false from by show (!(k2_cond2 _ == 1#1)) = false; rw [(hcond2_1 t).mpr h1]; rfl]; rfl,
      outsAt2_C V c t h1, acc2_pos V c t.val _ (by omega)]
  on_goal 2 =>
    rw [Dat.leavesExact_idle (dat2 V c) 3 t (idle2_3 t (by omega)) (Bool.eq_false_iff.mpr (mt (flush2_3 t).mp (by omega))), outsAt2_A V c t h0]
  on_goal 3 =>
    rw [Dat.leavesExact_idle (dat2 V c) 3 t (idle2_3 t h1) (Bool.eq_false_iff.mpr (mt (flush2_3 t).mp h1)), outsAt2_B V c t h0 h1, acc2_pos V c t.val _ (by omega)]
  all_goals
    unfold ends2; dsimp only
    iintro ⟨⟨⟨HS0, HR⟩, Hg⟩, Ho, ⟨%d0, H0⟩, ⟨%d1, H1⟩, ⟨%d2, H2⟩, ⟨%d3, H3⟩⟩
  on_goal 1 =>
    iapply (runC2 V c t h1 _).2.2 Set.univ _
    iframe H0 H1 H2
    isplitl [H3]; · iexists _; iexact H3
    iframe HS0
  on_goal 2 =>
    iapply (runA2 V c t h0).2.2 _ Set.univ _
    iframe H0 H1 H2
    isplitl [H3]; · iexact H3
    isplitl [HS0]; · iapply acc2_any V c _ _ $$ HS0
  on_goal 3 =>
    iapply (runB2 V c t h0 h1 _).2.2 _ Set.univ _
    iframe H0 H1 H2
    isplitl [H3]; · iexact H3
    iframe HS0
  all_goals
    iintro ⟨H0, H1, H2, H3, HS0⟩
    iframe HR Hg Ho H0 H1 H2
    isplitl [HS0]
    · iapply wrote2 c _ _ (by sl_kernel_rfl) $$ HS0
    first | iapply wrote2 c _ _ (by sl_kernel_rfl) $$ H3 | (iexists _; iexact H3)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Entails.of_eq (PhiA2_eq c)

theorem hout2 (c : Dev nD) : (dat2 V c).Φ (Fin.last cfg2.N) ⊢ Pipeline.ΦA spec2 c := by
  rw [PhiA2_eq]
  exact sep_mono_left (sep_mono_left (acc2_any V c _ _))

end Cert.KernelIdeal.Hand

end
-- ==== Proof.KI.Reg3.lean ====
import proofs.«146792_j51445118271859_1_alg».proof.Proof.Gen.KernelIdeal.Launch
import proofs.«146792_j51445118271859_1_alg».proof.Proof.Gen.KernelIdeal.Skeleton
import proofs.«146792_j51445118271859_1_alg».proof.Proof.Gen.KernelIdeal.Points
import Idealize.ShloMosaic.Lib.Pipeline.FrameBody
import Idealize.ShloMosaic.Lib.Pipeline.TableIdle
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem zeros3 : (![0, 0] : Fin 2 → Nat) = fun _ => 0 := by decide

-- Run on inputs equal to x0 and x1, the body keeps both and leaves k3_pay1 x0 x1 as its output.
theorem sound_kernel3 (c : Dev nD) (i : grid3.Coords) (E : Set ℕ) {a1 : Memref sig .tc .vmem S2048x256 .f32} (h1 : a1.IsWhole)
    {a2 : Memref sig .tc .vmem S256x256 .f32} (h2 : a2.IsWhole) {a3 : Memref sig .tc .vmem S2048x256 .f32} (h3 : a3.IsWhole)
    {x0 : Vec F S2048x256 .f32} {x1 : Vec F S256x256 .f32} {b0 : Vec F S2048x256 .f32 → Vec F S2048x256 .f32}
    {b1 : Vec F S256x256 .f32 → Vec F S256x256 .f32} (e0 : ∀ d, b0 d = x0) (e1 : ∀ d, b1 d = x1)
    (g : Vec F S2048x256 .f32 → Vec F S2048x256 .f32) :
    (iprop((∃ d, owns c.tc a1 fullShare (b0 d)) ∗ (∃ d, owns c.tc a2 fullShare (b1 d)) ∗ (∃ d, owns c.tc a3 fullShare (g d))) : sProp (MT nD τ sig Unit (Elt F) ℕ (UR sig nD τ) ℕ))
      ⊢ wp frame (wpE (defs₀ (F := F)) Variants.none c none) E (cc3__linear_kernel i a1 h1 a2 h2 a3 h3) fun _ =>
        iprop(owns c.tc a1 fullShare x0 ∗ owns c.tc a2 fullShare x1 ∗ owns c.tc a3 fullShare (k3_pay1 x0 x1)) := by
  simp only [e0, e1]
  rw [cc3__linear_kernel_eq_skeleton, owns_eq_rep, owns_eq_rep]; unfold cc3__linear_kernel_skel owns
  iintro ⟨⟨%_, H0⟩, ⟨%_, H1⟩, %d, %f, -, H2⟩
  sl_exec
  sl_step
  iframe H0 H1
  iexists _
  iframe H2
  ipureintro
  rw [View.readAt_eq_ld, View.readAt_eq_ld, View.read_rep, View.read_rep, View.ld_unit_zero (S := S2048x256) zeros3,
    View.ld_unit_zero (S := S256x256) zeros3]
  exact (View.read_writes_eq_canon _ _ _ (View.cover_of_tiled _ S2048x256.size (by rfl))).trans (View.canon_unit_zero zeros3 _ _)

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (w : Fin cfg3.W) : (dat3 V c).A w = V c (Pipeline.arrRef spec3 w) := rfl

variable (t : Fin cfg3.N)

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d

theorem body_obligation3 : BodyObligation (dat3 (F := F) V c) (defs₀ (F := F)) Variants.none () Set.univ := fun t => by
  rw [bigSep_W3, bigSep_W3]
  show _ ⊢ wp _ _ _ (bodyAt3 t) _
  exact (sep_mono_right (sep_mono_right (sound_kernel3 c _ Set.univ _ _ _ (before3_0 V c t) (before3_1 V c t) _))).trans
    ((sep_mono_right (wp_frame_l _ _ _)).trans (wp_frame_l _ _ _))

end Cert.KernelIdeal.Hand

end
-- ==== Proof.KI.Reg4.Runs.lean ====
import proofs.«146792_j51445118271859_1_alg».proof.Proof.Gen.KernelIdeal.Launch
import proofs.«146792_j51445118271859_1_alg».proof.Proof.Gen.KernelIdeal.Skeleton
import proofs.«146792_j51445118271859_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1

theorem coord4_1 (t : Fin grid4.N) : (grid4.coords t 1).val = t.val % 25 := by
  show t.val / grid4.stride 1 % 25 = t.val % 25
  rw [show grid4.stride 1 = 1 from by decide, Nat.div_one]

theorem cond4_0_coord : ∀ v : Fin 25,
    (Scalar.cmpi .ne (Scalar.extui (Scalar.cmpi .eq (BitVec.ofNat 32 v.val) 0#32)) 0#32) = 1#1 ↔ v.val = 0 := by decide +kernel

theorem hcond4_0 : ∀ t : Fin cfg4.N, cond4_0 (grid4.coords t) ↔ t.val % 25 = 0 := fun t =>
  (show cond4_0 (grid4.coords t) ↔ (grid4.coords t 1).val = 0 from cond4_0_coord (grid4.coords t 1)).trans (by rw [coord4_1 t])

abbrev cond4_1 (i : grid4.Coords) : Prop := k4_cond2 i = 1#1

theorem cond4_1_coord : ∀ v : Fin 25,
    (Scalar.cmpi .ne (Scalar.extui (Scalar.cmpi .eq (BitVec.ofNat 32 v.val) 24#32)) 0#32) = 1#1 ↔ v.val = 24 := by decide +kernel

theorem hcond4_1 : ∀ t : Fin cfg4.N, cond4_1 (grid4.coords t) ↔ t.val % 25 = 24 := fun t =>
  (show cond4_1 (grid4.coords t) ↔ (grid4.coords t 1).val = 24 from cond4_1_coord (grid4.coords t 1)).trans (by rw [coord4_1 t])

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

theorem idleAt4_3 : ∀ t : Fin cfg4.N, ¬cond4_1 (grid4.coords t) → cfg4.idle 3 (grid4.coords t) = true := by
  intro t h
  show (!(k4_cond2 (grid4.coords t) == 1#1)) = true
  rw [Bool.not_eq_true', beq_eq_false_iff_ne]; exact h

theorem noFlush4_3 : ∀ t : Fin cfg4.N, ¬cond4_1 (grid4.coords t) → (cfg4.win 3).flush t = false := by
  intro t h
  have h24 : ¬t.val % 25 = 24 := fun e => h ((hcond4_1 t).mpr e)
  cases hf : (cfg4.win 3).flush t with
  | false => rfl
  | true => exact absurd ((flush4_3 t).mp hf) h24

theorem liveAt4_3 : ∀ t : Fin cfg4.N, cond4_1 (grid4.coords t) → cfg4.idle 3 (grid4.coords t) = false := by
  intro t h
  show (!(k4_cond2 (grid4.coords t) == 1#1)) = false
  rw [Bool.not_eq_false', beq_iff_eq]; exact h

abbrev ms4_0 (t : Fin cfg4.N) : Memref sig .tc .vmem S1024x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x256 .bf16 := win4_3.stage (cfg4.slots t 3)
abbrev hs4_3 (t : Fin cfg4.N) : (ms4_3 t).IsWhole := hstage4_3 ((cfg4.slots t 3).cast nbuf4_3)

abbrev scM4_0 : Memref sig .tc .vmem S1024x256 .f32 := Memref.whole cc4_scratch0

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.Reg4.lean ====
import proofs.«146792_j51445118271859_1_alg».proof.Proof.KI.Reg1.RunC
import proofs.«146792_j51445118271859_1_alg».proof.Proof.KI.Reg4.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The contents a run's two lists of pieces determine: the output block's and the accumulator's.
def outs4 {P : List (View.Piece (Elt F) S1024x256 .bf16) → List (View.Piece (Elt F) S1024x256 .f32) → Prop}
    (r : Σ' L3, { LS0 // P L3 LS0 }) : Vec F S1024x256 .bf16 × Vec F S1024x256 .f32 := (View.canon r.1, View.canon r.2.1)

variable (c : Dev nD) (t : Fin cfg4.N)

-- The three cases of the body at grid point t (a: the accumulator's contents on entry).
def runA4 (h0 : t.val % 25 = 0) :=
  kernelRun1_A c (grid4.coords t) (ms4_0 t) (hs4_0 t) (ms4_1 t) (hs4_1 t) (ms4_2 t) (hs4_2 t) (ms4_3 t) (hs4_3 t) scM4_0 (Memref.isWhole_whole _)
    ((hcond4_0 t).mpr h0) (fun h => absurd ((hcond4_1 t).mp h) (by omega)) (iblk4 V c 0 t) (iblk4 V c 1 t) (iblk4 V c 2 t)
def runB4 (h0 : ¬t.val % 25 = 0) (h1 : ¬t.val % 25 = 24) (a : Vec F S1024x256 .f32) :=
  kernelRun1_B c (grid4.coords t) (ms4_0 t) (hs4_0 t) (ms4_1 t) (hs4_1 t) (ms4_2 t) (hs4_2 t) (ms4_3 t) (hs4_3 t) scM4_0 (Memref.isWhole_whole _)
    (mt (hcond4_0 t).mp h0) (mt (hcond4_1 t).mp h1) (iblk4 V c 0 t) (iblk4 V c 1 t) (iblk4 V c 2 t) a
def runC4 (h1 : t.val % 25 = 24) (a : Vec F S1024x256 .f32) :=
  kernelRun1_C c (grid4.coords t) (ms4_0 t) (hs4_0 t) (ms4_1 t) (hs4_1 t) (ms4_2 t) (hs4_2 t) (ms4_3 t) (hs4_3 t) scM4_0 (Memref.isWhole_whole _)
    (fun h => absurd ((hcond4_0 t).mp h) (by omega)) ((hcond4_1 t).mpr h1) (iblk4 V c 0 t) (iblk4 V c 1 t) (iblk4 V c 2 t) a

-- What the output block and the accumulator hold after position n: the case n % 25 selects, over what position n - 1 left.
def outsAt4 (c : Dev nD) : (n : ℕ) → n < cfg4.N → Vec F S1024x256 .bf16 × Vec F S1024x256 .f32
  | 0, hn => outs4 (runA4 V c ⟨0, hn⟩ (Nat.zero_mod 25))
  | n + 1, hn =>
    if h0 : (n + 1) % 25 = 0 then outs4 (runA4 V c ⟨n + 1, hn⟩ h0)
    else if h1 : (n + 1) % 25 = 24 then outs4 (runC4 V c ⟨n + 1, hn⟩ h1 (outsAt4 c n (Nat.lt_of_succ_lt hn)).2)
    else outs4 (runB4 V c ⟨n + 1, hn⟩ h0 h1 (outsAt4 c n (Nat.lt_of_succ_lt hn)).2)

-- The accumulator's contents on entry to a point that is not the first.
abbrev prev4 : Vec F S1024x256 .f32 := (outsAt4 V c (t.val - 1) (Nat.lt_of_le_of_lt (Nat.sub_le _ _) t.isLt)).2

theorem outsAt4_A (h0 : t.val % 25 = 0) : outsAt4 V c t.val t.isLt = outs4 (runA4 V c t h0) := by
  obtain ⟨n, hn⟩ := t
  cases n with
  | zero => rfl
  | succ n => exact dif_pos h0

theorem outsAt4_B (h0 : ¬t.val % 25 = 0) (h1 : ¬t.val % 25 = 24) : outsAt4 V c t.val t.isLt = outs4 (runB4 V c t h0 h1 (prev4 V c t)) := by
  obtain ⟨n, hn⟩ := t
  cases n with
  | zero => exact absurd (Nat.zero_mod 25) h0
  | succ n => exact (dif_neg h0).trans (dif_neg h1)

theorem outsAt4_C (h1 : t.val % 25 = 24) : outsAt4 V c t.val t.isLt = outs4 (runC4 V c t h1 (prev4 V c t)) := by
  obtain ⟨n, hn⟩ := t
  cases n with
  | zero => exact absurd h1 (show ¬(0 % 25 = 24) by decide)
  | succ n => exact (dif_neg fun e => absurd (e.symm.trans h1) (show ¬(0 = 24) by decide)).trans (dif_pos h1)

-- The region invariant around the accumulator's assertion P.
def inv4 (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

-- The region invariant before position n: the accumulator at what position n - 1 left (at anything before the first).
def PhiS4 (c : Dev nD) : (n : ℕ) → n ≤ cfg4.N → sProp 𝕄
  | 0, _ => Pipeline.ΦA spec4 c
  | n + 1, hn => inv4 c (owns (c : Thread nD τ) scM4_0 fullShare (outsAt4 V c n hn).2)

theorem PhiS4_pos (n : ℕ) (h : n ≤ cfg4.N) (hz : n ≠ 0) :
    PhiS4 V c n h = inv4 c (owns (c : Thread nD τ) scM4_0 fullShare (outsAt4 V c (n - 1) (by omega)).2) := by
  cases n with
  | zero => exact absurd rfl hz
  | succ n => rfl

-- At every position the invariant gives the accumulator at some contents.
theorem PhiS4_any (n : ℕ) (h : n ≤ cfg4.N) : PhiS4 V c n h ⊢ inv4 c iprop(∃ d, owns (c : Thread nD τ) scM4_0 fullShare d) := by
  cases n with
  | zero => rw [show PhiS4 V c 0 h = Pipeline.ΦA spec4 c from rfl, PhiA4_eq]; exact .rfl
  | succ n =>
    unfold PhiS4 inv4
    iintro ⟨⟨HS0, Hr⟩, Hg⟩
    iframe Hr Hg
    iexists _; iexact HS0

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_3 : (dat4 V c).after 3 t = (outsAt4 V c t.val t.isLt).1 := rfl

-- Pieces that tile a block determine its contents, whatever it held before.
theorem written4 {s : Shape} {e : EltTy} (M : Memref sig .tc .vmem s e) (L : List (View.Piece (Elt F) s e))
    (hL : View.Piece.tiledL L s.size = true) (f : Buf (Elt F) (M.view.loc (c : Thread nD τ))) :
    (M.view.loc (c : Thread nD τ) ↦[M.view.set]{fullShare} M.view.writes (Elt F) f L : sProp 𝕄) ⊢ owns (c : Thread nD τ) M fullShare (View.canon L) := by
  iintro H; unfold owns; iexists M.view.writes (Elt F) f L; isplitr
  · ipureintro; exact View.read_writes_eq_canon _ _ _ (View.cover_of_tiledL L _ hL)
  iexact H

def bodyPre4 : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t)

theorem leaves4_0 : (dat4 V c).leavesExact 0 t = owns (c : Thread nD τ) (ms4_0 t) fullShare (iblk4 V c 0 t) :=
  show _ = owns (c : Thread nD τ) (ms4_0 t) fullShare ((dat4 V c).after 0 t) from by unfold Dat.leavesExact; rw [liveAt4_0 t]
theorem leaves4_1 : (dat4 V c).leavesExact 1 t = owns (c : Thread nD τ) (ms4_1 t) fullShare (iblk4 V c 1 t) :=
  show _ = owns (c : Thread nD τ) (ms4_1 t) fullShare ((dat4 V c).after 1 t) from by unfold Dat.leavesExact; rw [liveAt4_1 t]
theorem leaves4_2 : (dat4 V c).leavesExact 2 t = owns (c : Thread nD τ) (ms4_2 t) fullShare (iblk4 V c 2 t) :=
  show _ = owns (c : Thread nD τ) (ms4_2 t) fullShare ((dat4 V c).after 2 t) from by unfold Dat.leavesExact; rw [liveAt4_2 t]

theorem leaves4_3 (h1 : t.val % 25 = 24) : (dat4 V c).leavesExact 3 t = owns (c : Thread nD τ) (ms4_3 t) fullShare (outsAt4 V c t.val t.isLt).1 :=
  show _ = owns (c : Thread nD τ) (ms4_3 t) fullShare ((dat4 V c).after 3 t) from by unfold Dat.leavesExact; rw [liveAt4_3 t ((hcond4_1 t).mpr h1)]

theorem leaves_out4 (h1 : ¬t.val % 25 = 24) :
    (dat4 V c).leavesExact 3 t = iprop(∃ d, owns (c : Thread nD τ) (ms4_3 t) fullShare ((dat4 V c).before 3 t d)) :=
  Dat.leavesExact_idle (dat4 V c) 3 t (idleAt4_3 t (mt (hcond4_1 t).mp h1)) (noFlush4_3 t (mt (hcond4_1 t).mp h1))

theorem sound_body4 :
    bodyPre4 V c t ⊢ wp frame (wpE (defs₀ (F := F)) Variants.none c none) Set.univ (bodyAt4 t) (fun _ => bodyPost4 V c t) := by
  unfold bodyPre4 bodyPost4 bodyAt4
  simp only [before4_0_of V (dat4 V c) rfl (fun _ => rfl), before4_1_of V (dat4 V c) rfl (fun _ => rfl), before4_2_of V (dat4 V c) rfl (fun _ => rfl)]
  rw [show (dat4 V c).owesAt () t.succ = (dat4 V c).owesAt () t.castSucc from rfl,
    show (dat4 V c).Φ t.succ = inv4 c (owns (c : Thread nD τ) scM4_0 fullShare (outsAt4 V c t.val t.isLt).2) from rfl,
    leaves4_0, leaves4_1, leaves4_2, show (dat4 V c).Φ t.castSucc = PhiS4 V c t.val (Nat.le_of_lt t.isLt) from rfl]
  by_cases h0 : t.val % 25 = 0
  · rw [leaves_out4 V c t (by omega), outsAt4_A V c t h0]
    unfold outs4; dsimp only
    iintro ⟨HΦ, Ho, ⟨%d0, H0⟩, ⟨%d1, H1⟩, ⟨%d2, H2⟩, ⟨%d3, H3⟩⟩
    ihave HΦ' := (PhiS4_any V c t.val (Nat.le_of_lt t.isLt)) $$ HΦ
    unfold inv4
    icases HΦ' with ⟨⟨HS0, Hr⟩, Hg⟩
    iapply ((runA4 V c t h0).2.2 ((dat4 V c).before 3 t d3) Set.univ _)
    iframe H0 H1 H2 H3 HS0
    iintro ⟨H0, H1, H2, H3, ⟨%es0, HS0⟩⟩
    ihave HS := (written4 c scM4_0 (runA4 V c t h0).2.1 (by sl_kernel_rfl) _) $$ HS0
    iframe
    iexists _; iexact H3
  · have hz : t.val ≠ 0 := fun e => h0 (by rw [e])
    rw [PhiS4_pos V c _ _ hz]
    unfold inv4
    by_cases h1 : t.val % 25 = 24
    · rw [leaves4_3 V c t h1, outsAt4_C V c t h1]
      unfold outs4; dsimp only
      iintro ⟨⟨⟨HS0, Hr⟩, Hg⟩, Ho, ⟨%d0, H0⟩, ⟨%d1, H1⟩, ⟨%d2, H2⟩, ⟨%d3, H3⟩⟩
      iapply ((runC4 V c t h1 (prev4 V c t)).2.2 Set.univ _)
      iframe H0 H1 H2 HS0
      isplitl [H3]; · iexists _; iexact H3
      iintro ⟨H0, H1, H2, ⟨%e3, H3⟩, ⟨%es0, HS0⟩⟩
      ihave HS := (written4 c scM4_0 (runC4 V c t h1 (prev4 V c t)).2.1 (by sl_kernel_rfl) _) $$ HS0
      ihave HO := (written4 c (ms4_3 t) (runC4 V c t h1 (prev4 V c t)).1 (by sl_kernel_rfl) _) $$ H3
      iframe
    · rw [leaves_out4 V c t h1, outsAt4_B V c t h0 h1]
      unfold outs4; dsimp only
      iintro ⟨⟨⟨HS0, Hr⟩, Hg⟩, Ho, ⟨%d0, H0⟩, ⟨%d1, H1⟩, ⟨%d2, H2⟩, ⟨%d3, H3⟩⟩
      iapply ((runB4 V c t h0 h1 (prev4 V c t)).2.2 ((dat4 V c).before 3 t d3) Set.univ _)
      iframe H0 H1 H2 H3 HS0
      iintro ⟨H0, H1, H2, H3, ⟨%es0, HS0⟩⟩
      ihave HS := (written4 c scM4_0 (runB4 V c t h0 h1 (prev4 V c t)).2.1 (by sl_kernel_rfl) _) $$ HS0
      iframe
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := by
  rw [PhiA4_eq]; exact PhiS4_any V c (Fin.last cfg4.N).val _

end Cert.KernelIdeal.Hand

end
-- ==== Proof.KI.Reg5.Runs.lean ====
import proofs.«146792_j51445118271859_1_alg».proof.Proof.Gen.KernelIdeal.Launch
import proofs.«146792_j51445118271859_1_alg».proof.Proof.Gen.KernelIdeal.Skeleton
import proofs.«146792_j51445118271859_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1

theorem coord5_1 (t : Fin grid5.N) : (grid5.coords t 1).val = t.val % 342 := by
  show t.val / grid5.stride 1 % 342 = t.val % 342
  rw [show grid5.stride 1 = 1 from by decide, Nat.div_one]

theorem cond5_0_coord : ∀ v : Fin 342,
    (Scalar.cmpi .ne (Scalar.extui (Scalar.cmpi .eq (BitVec.ofNat 32 v.val) 0#32)) 0#32) = 1#1 ↔ v.val = 0 := by decide +kernel

theorem hcond5_0 : ∀ t : Fin cfg5.N, cond5_0 (grid5.coords t) ↔ t.val % 342 = 0 := fun t =>
  (show cond5_0 (grid5.coords t) ↔ (grid5.coords t 1).val = 0 from cond5_0_coord (grid5.coords t 1)).trans (by rw [coord5_1 t])

abbrev cond5_1 (i : grid5.Coords) : Prop := k5_cond2 i = 1#1

theorem cond5_1_coord : ∀ v : Fin 342,
    (Scalar.cmpi .ne (Scalar.extui (Scalar.cmpi .eq (BitVec.ofNat 32 v.val) 341#32)) 0#32) = 1#1 ↔ v.val = 341 := by decide +kernel

theorem hcond5_1 : ∀ t : Fin cfg5.N, cond5_1 (grid5.coords t) ↔ t.val % 342 = 341 := fun t =>
  (show cond5_1 (grid5.coords t) ↔ (grid5.coords t 1).val = 341 from cond5_1_coord (grid5.coords t 1)).trans (by rw [coord5_1 t])

abbrev ms5_0 (t : Fin cfg5.N) : Memref sig .tc .vmem S1x1024 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x256 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x256 .f32 := win5_3.stage (cfg5.slots t 3)
abbrev hs5_3 (t : Fin cfg5.N) : (ms5_3 t).IsWhole := hstage5_3 ((cfg5.slots t 3).cast nbuf5_3)

abbrev scM5_0 : Memref sig .tc .vmem S2048x256 .f32 := Memref.whole cc5_scratch0

theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.Reg5.lean ====
import proofs.«146792_j51445118271859_1_alg».proof.Proof.KI.Reg2.RunC
import proofs.«146792_j51445118271859_1_alg».proof.Proof.KI.Reg5.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The body's three runs at grid point t.
def runA5 (c : Dev nD) (t : Fin cfg5.N) (h0 : t.val % 342 = 0) :=
  kernelRun2_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => by have := (hcond5_1 t).mp h; omega) (iblk5 V c 0 t) (iblk5 V c 1 t) (iblk5 V c 2 t)

def runB5 (c : Dev nD) (t : Fin cfg5.N) (h0 : ¬t.val % 342 = 0) (h1 : ¬t.val % 342 = 341) (xs0 : Vec F S2048x256 .f32) :=
  kernelRun2_B c (grid5.coords t) (ms5_0 t) (hs5_0 t) (ms5_1 t) (hs5_1 t) (ms5_2 t) (hs5_2 t) (ms5_3 t) (hs5_3 t) scM5_0 (Memref.isWhole_whole _) (mt (hcond5_0 t).mp h0) (mt (hcond5_1 t).mp h1) (iblk5 V c 0 t) (iblk5 V c 1 t) (iblk5 V c 2 t) xs0

def runC5 (c : Dev nD) (t : Fin cfg5.N) (h1 : t.val % 342 = 341) (xs0 : Vec F S2048x256 .f32) :=
  kernelRun2_C c (grid5.coords t) (ms5_0 t) (hs5_0 t) (ms5_1 t) (hs5_1 t) (ms5_2 t) (hs5_2 t) (ms5_3 t) (hs5_3 t) scM5_0 (Memref.isWhole_whole _) (fun h => by have := (hcond5_0 t).mp h; omega) ((hcond5_1 t).mpr h1) (iblk5 V c 0 t) (iblk5 V c 1 t) (iblk5 V c 2 t) xs0

-- The contents a run's two lists of pieces determine.
def ends5 {P : List (View.Piece (Elt F) S2048x256 .f32) → List (View.Piece (Elt F) S2048x256 .f32) → Prop} (r : Σ' L3, { LS0 // P L3 LS0 }) : Vec F S2048x256 .f32 × Vec F S2048x256 .f32 :=
  (View.canon r.1, View.canon r.2.1)

-- After point n: the sum restarts where n ≡ 0 (mod 342), else continues from point n - 1.
def outsAt5 (c : Dev nD) (n : ℕ) (hn : n < cfg5.N) : Vec F S2048x256 .f32 × Vec F S2048x256 .f32 :=
  if h0 : n % 342 = 0 then ends5 (runA5 V c ⟨n, hn⟩ h0)
  else if h1 : n % 342 = 341 then ends5 (runC5 V c ⟨n, hn⟩ h1 (outsAt5 c (n - 1) (by omega)).2)
  else ends5 (runB5 V c ⟨n, hn⟩ h0 h1 (outsAt5 c (n - 1) (by omega)).2)

theorem outsAt5_A (c : Dev nD) (t : Fin cfg5.N) (h0 : t.val % 342 = 0) : outsAt5 V c t.val t.isLt = ends5 (runA5 V c t h0) := by
  rw [outsAt5, dif_pos h0]

theorem outsAt5_B (c : Dev nD) (t : Fin cfg5.N) (h0 : ¬t.val % 342 = 0) (h1 : ¬t.val % 342 = 341) :
    outsAt5 V c t.val t.isLt = ends5 (runB5 V c t h0 h1 (outsAt5 V c (t.val - 1) (by omega)).2) := by
  rw [outsAt5, dif_neg h0, dif_neg h1]

theorem outsAt5_C (c : Dev nD) (t : Fin cfg5.N) (h1 : t.val % 342 = 341) :
    outsAt5 V c t.val t.isLt = ends5 (runC5 V c t h1 (outsAt5 V c (t.val - 1) (by omega)).2) := by
  rw [outsAt5, dif_neg (by omega), dif_pos h1]

-- The accumulator before point n.
def acc5 (c : Dev nD) : (n : ℕ) → n ≤ cfg5.N → sProp 𝕄
  | 0, _ => iprop(∃ d, owns (c : Thread nD τ) scM5_0 fullShare d)
  | n + 1, hn => owns (c : Thread nD τ) scM5_0 fullShare (outsAt5 V c n hn).2

theorem acc5_pos (c : Dev nD) (n : ℕ) (h : n ≤ cfg5.N) (hz : n ≠ 0) :
    acc5 V c n h = owns (c : Thread nD τ) scM5_0 fullShare (outsAt5 V c (n - 1) (by omega)).2 := by
  cases n with
  | zero => exact absurd rfl hz
  | succ n => rfl

theorem acc5_any (c : Dev nD) (n : ℕ) (h : n ≤ cfg5.N) : acc5 V c n h ⊢ iprop(∃ d, owns (c : Thread nD τ) scM5_0 fullShare d) := by
  cases n with
  | zero => exact Entails.refl _
  | succ n => unfold acc5; iintro H; iexists _; iexact H

-- The region invariant around the accumulator's assertion P.
def inv5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := inv5 c (acc5 V c t.val (Nat.le_of_lt_succ t.isLt))
  q _ := fullShare
  owed _ := 0

theorem A_eq5 (c : Dev nD) (w : Fin cfg5.W) : (dat5 V c).A w = V c (Pipeline.arrRef spec5 w) := rfl

theorem before5 (c : Dev nD) (t : Fin cfg5.N) : (∀ d, (dat5 V c).before 0 t d = iblk5 V c 0 t)
    ∧ (∀ d, (dat5 V c).before 1 t d = iblk5 V c 1 t) ∧ ∀ d, (dat5 V c).before 2 t d = iblk5 V c 2 t := by
  refine ⟨?_, ?_, ?_⟩ <;> exact fun d => (Dat.before_in_eq_fetched _ _ rfl (fun _ => rfl) (fun _ _ _ => rfl) (fun _ => rfl) t d).trans rfl

-- The output block is stored only where t ≡ 341 (mod 342).
theorem idle5_3 (t : Fin cfg5.N) (h1 : ¬t.val % 342 = 341) : cfg5.idle 3 (grid5.coords t) = true := by
  show (!(k5_cond2 _ == 1#1)) = true; rw [beq_eq_false_iff_ne.mpr (mt (hcond5_1 t).mp h1)]; rfl

-- Tiling pieces determine the contents, whatever was there before.
theorem wrote5 (c : Dev nD) (m : Memref sig .tc .vmem S2048x256 .f32) (L : List (View.Piece (Elt F) S2048x256 .f32)) (h : View.Piece.tiledL L S2048x256.size = true) :
    (iprop(∃ f, m.view.loc (c : Thread nD τ) ↦[m.view.set]{fullShare} m.view.writes (Elt F) f L) : sProp 𝕄) ⊢ owns (c : Thread nD τ) m fullShare (View.canon L) := by
  iintro ⟨%f, H⟩; unfold owns; iexists m.view.writes (Elt F) f L; isplitr
  · ipureintro; exact View.read_writes_eq_canon _ _ _ (View.cover_of_tiledL L _ h)
  iexact H

theorem sound_body5 (c : Dev nD) (t : Fin cfg5.N) :
    iprop(inv5 c (acc5 V c t.val (Nat.le_of_lt t.isLt)) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d))
      ∗ (∃ d, owns (c : Thread nD τ) (ms5_3 t) fullShare ((dat5 V c).before 3 t d)))
    ⊢ wp frame (wpE (defs₀ (F := F)) Variants.none c none) Set.univ (bodyAt5 t) fun _ =>
      iprop(inv5 c (owns (c : Thread nD τ) scM5_0 fullShare (outsAt5 V c t.val t.isLt).2) ∗ (dat5 V c).owesAt () t.castSucc
        ∗ owns (c : Thread nD τ) (ms5_0 t) fullShare (iblk5 V c 0 t)
        ∗ owns (c : Thread nD τ) (ms5_1 t) fullShare (iblk5 V c 1 t)
        ∗ owns (c : Thread nD τ) (ms5_2 t) fullShare (iblk5 V c 2 t)
        ∗ (dat5 V c).leavesExact 3 t) := by
  simp only [(before5 V c t).1, (before5 V c t).2.1, (before5 V c t).2.2]
  unfold inv5 bodyAt5
  rcases (by omega : t.val % 342 = 341 ∨ t.val % 342 = 0 ∨ ¬t.val % 342 = 0 ∧ ¬t.val % 342 = 341) with h1 | h0 | ⟨h0, h1⟩
  on_goal 1 =>
    rw [show (dat5 V c).leavesExact 3 t = owns (c : Thread nD τ) (ms5_3 t) fullShare (outsAt5 V c t.val t.isLt).1 from by
      unfold Dat.leavesExact; rw [show cfg5.idle 3 (grid5.coords t) = false from by show (!(k5_cond2 _ == 1#1)) = false; rw [(hcond5_1 t).mpr h1]; rfl]; rfl,
      outsAt5_C V c t h1, acc5_pos V c t.val _ (by omega)]
  on_goal 2 =>
    rw [Dat.leavesExact_idle (dat5 V c) 3 t (idle5_3 t (by omega)) (Bool.eq_false_iff.mpr (mt (flush5_3 t).mp (by omega))), outsAt5_A V c t h0]
  on_goal 3 =>
    rw [Dat.leavesExact_idle (dat5 V c) 3 t (idle5_3 t h1) (Bool.eq_false_iff.mpr (mt (flush5_3 t).mp h1)), outsAt5_B V c t h0 h1, acc5_pos V c t.val _ (by omega)]
  all_goals
    unfold ends5; dsimp only
    iintro ⟨⟨⟨HS0, HR⟩, Hg⟩, Ho, ⟨%d0, H0⟩, ⟨%d1, H1⟩, ⟨%d2, H2⟩, ⟨%d3, H3⟩⟩
  on_goal 1 =>
    iapply (runC5 V c t h1 _).2.2 Set.univ _
    iframe H0 H1 H2
    isplitl [H3]; · iexists _; iexact H3
    iframe HS0
  on_goal 2 =>
    iapply (runA5 V c t h0).2.2 _ Set.univ _
    iframe H0 H1 H2
    isplitl [H3]; · iexact H3
    isplitl [HS0]; · iapply acc5_any V c _ _ $$ HS0
  on_goal 3 =>
    iapply (runB5 V c t h0 h1 _).2.2 _ Set.univ _
    iframe H0 H1 H2
    isplitl [H3]; · iexact H3
    iframe HS0
  all_goals
    iintro ⟨H0, H1, H2, H3, HS0⟩
    iframe HR Hg Ho H0 H1 H2
    isplitl [HS0]
    · iapply wrote5 c _ _ (by sl_kernel_rfl) $$ HS0
    first | iapply wrote5 c _ _ (by sl_kernel_rfl) $$ H3 | (iexists _; iexact H3)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Entails.of_eq (PhiA5_eq c)

theorem hout5 (c : Dev nD) : (dat5 V c).Φ (Fin.last cfg5.N) ⊢ Pipeline.ΦA spec5 c := by
  rw [PhiA5_eq]
  exact sep_mono_left (sep_mono_left (acc5_any V c _ _))

end Cert.KernelIdeal.Hand

end
-- ==== Proof.KI.Reg6.lean ====
import proofs.«146792_j51445118271859_1_alg».proof.Proof.Gen.KernelIdeal.Launch
import proofs.«146792_j51445118271859_1_alg».proof.Proof.Gen.KernelIdeal.Skeleton
import proofs.«146792_j51445118271859_1_alg».proof.Proof.Gen.KernelIdeal.Points
import Idealize.ShloMosaic.Lib.Pipeline.FrameBody
import Idealize.ShloMosaic.Lib.Pipeline.TableIdle
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem zeros6 : (![0, 0] : Fin 2 → Nat) = fun _ => 0 := by decide

-- Run on inputs equal to x0, x1 and x2, the body keeps all three and leaves k6_pay1 x0 x1 x2 as its output.
theorem sound_kernel6 (c : Dev nD) (i : grid6.Coords) (E : Set ℕ) {a1 : Memref sig .tc .vmem S2048x256 .f32} (h1 : a1.IsWhole)
    {a2 : Memref sig .tc .vmem S256x32 .f32} (h2 : a2.IsWhole) {a3 : Memref sig .tc .vmem S1x32 .f32} (h3 : a3.IsWhole)
    {a4 : Memref sig .tc .vmem S2048x32 .f32} (h4 : a4.IsWhole) {x0 : Vec F S2048x256 .f32} {x1 : Vec F S256x32 .f32}
    {x2 : Vec F S1x32 .f32} {b0 : Vec F S2048x256 .f32 → Vec F S2048x256 .f32} {b1 : Vec F S256x32 .f32 → Vec F S256x32 .f32}
    {b2 : Vec F S1x32 .f32 → Vec F S1x32 .f32} (e0 : ∀ d, b0 d = x0) (e1 : ∀ d, b1 d = x1) (e2 : ∀ d, b2 d = x2)
    (g : Vec F S2048x32 .f32 → Vec F S2048x32 .f32) :
    (iprop((∃ d, owns c.tc a1 fullShare (b0 d)) ∗ (∃ d, owns c.tc a2 fullShare (b1 d)) ∗ (∃ d, owns c.tc a3 fullShare (b2 d))
        ∗ (∃ d, owns c.tc a4 fullShare (g d))) : sProp (MT nD τ sig Unit (Elt F) ℕ (UR sig nD τ) ℕ))
      ⊢ wp frame (wpE (defs₀ (F := F)) Variants.none c none) E (cc6__linear_bias_kernel i a1 h1 a2 h2 a3 h3 a4 h4) fun _ =>
        iprop(owns c.tc a1 fullShare x0 ∗ owns c.tc a2 fullShare x1 ∗ owns c.tc a3 fullShare x2
          ∗ owns c.tc a4 fullShare (k6_pay1 x0 x1 x2)) := by
  simp only [e0, e1, e2]
  rw [cc6__linear_bias_kernel_eq_skeleton, owns_eq_rep, owns_eq_rep, owns_eq_rep]; unfold cc6__linear_bias_kernel_skel owns
  iintro ⟨⟨%_, H0⟩, ⟨%_, H1⟩, ⟨%_, H2⟩, %d, %f, -, H3⟩
  sl_exec
  sl_step
  iframe H0 H1 H2
  iexists _
  iframe H3
  ipureintro
  rw [View.readAt_eq_ld, View.readAt_eq_ld, View.readAt_eq_ld, View.read_rep, View.read_rep, View.read_rep,
    View.ld_unit_zero (S := S2048x256) zeros6, View.ld_unit_zero (S := S256x32) zeros6, View.ld_unit_zero (S := S1x32) zeros6]
  exact (View.read_writes_eq_canon _ _ _ (View.cover_of_tiled _ S2048x32.size (by rfl))).trans (View.canon_unit_zero zeros6 _ _)

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay1 (iblk6 V c 0 t) (iblk6 V c 1 t) (iblk6 V c 2 t)
  Φ _ := Pipeline.ΦA spec6 c
  q _ := fullShare
  owed _ := 0

theorem A_eq6 (w : Fin cfg6.W) : (dat6 V c).A w = V c (Pipeline.arrRef spec6 w) := rfl

variable (t : Fin cfg6.N)

theorem before6_0 (d) : (dat6 V c).before 0 t d = iblk6 V c 0 t :=
  (dat6 V c).before_in_eq_fetched 0 rfl (fun _ => rfl) (fun _ _ _ => rfl) (fun _ => rfl) t d
theorem before6_1 (d) : (dat6 V c).before 1 t d = iblk6 V c 1 t :=
  (dat6 V c).before_in_eq_fetched 1 rfl (fun _ => rfl) (fun _ _ _ => rfl) (fun _ => rfl) t d
theorem before6_2 (d) : (dat6 V c).before 2 t d = iblk6 V c 2 t :=
  (dat6 V c).before_in_eq_fetched 2 rfl (fun _ => rfl) (fun _ _ _ => rfl) (fun _ => rfl) t d

theorem body_obligation6 : BodyObligation (dat6 (F := F) V c) (defs₀ (F := F)) Variants.none () Set.univ := fun t => by
  rw [bigSep_W6, bigSep_W6]
  show _ ⊢ wp _ _ _ (bodyAt6 t) _
  exact (sep_mono_right (sep_mono_right (sound_kernel6 c _ Set.univ _ _ _ _ (before6_0 V c t) (before6_1 V c t) (before6_2 V c t) _))).trans
    ((sep_mono_right (wp_frame_l _ _ _)).trans (wp_frame_l _ _ _))

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) : Type := (⟨2, ![a, b]⟩ : Shape).Idx → EReal

abbrev IMat (a b : Nat) : Type := (⟨2, ![a, b]⟩ : Shape).Idx → BitVec 32

def ind (p : Prop) [Decidable p] : EReal := if p then 1 else 0

theorem ind_pos {p : Prop} [Decidable p] (h : p) : ind p = 1 := if_pos h
theorem ind_neg {p : Prop} [Decidable p] (h : ¬p) : ind p = 0 := if_neg h

def lin {R K C : Nat} (X : Mat R K) (W : Mat K C) : Mat R C :=
  fun i => ∑ k : Fin K, X (ix2 ⟨(i 0).val, idx2_lt0 i⟩ k) * W (ix2 k ⟨(i 1).val, idx2_lt1 i⟩)

theorem lin_ix2 {R K C : Nat} (X : Mat R K) (W : Mat K C) (r : Fin R) (c : Fin C) :
    lin X W (ix2 r c) = ∑ k : Fin K, X (ix2 r k) * W (ix2 k c) := rfl

def linBias {R K C : Nat} (X : Mat R K) (W : Mat K C) (b : Mat 1 C) : Mat R C :=
  fun i => lin X W i + b (ix2 0 ⟨(i 1).val, idx2_lt1 i⟩)

theorem linBias_ix2 {R K C : Nat} (X : Mat R K) (W : Mat K C) (b : Mat 1 C) (r : Fin R) (c : Fin C) :
    linBias X W b (ix2 r c) = (∑ k : Fin K, X (ix2 r k) * W (ix2 k c)) + b (ix2 0 c) := rfl

abbrev nodeAt (t : Fin 25) (j : Fin 2048) : Fin 51200 := ⟨t.val * 2048 + j.val, by have := t.isLt; have := j.isLt; omega⟩

abbrev edgeAt (t : Fin 342) (j : Fin 1024) : Fin 350208 := ⟨t.val * 1024 + j.val, by have := t.isLt; have := j.isLt; omega⟩

def kMsg (src : IMat 350208 1) (nrm : Mat 350208 1) (H : Mat 51200 256) : Mat 350208 256 :=
  fun i => ∑ t : Fin 25, (∑ j : Fin 2048,
      ind (src (ix2 ⟨(i 0).val, idx2_lt0 i⟩ 0) = BitVec.ofNat 32 (nodeAt t j).val)
        * H (ix2 (nodeAt t j) ⟨(i 1).val, idx2_lt1 i⟩))
      * nrm (ix2 ⟨(i 0).val, idx2_lt0 i⟩ 0)

theorem kMsg_ix2 (src : IMat 350208 1) (nrm : Mat 350208 1) (H : Mat 51200 256) (e : Fin 350208) (f : Fin 256) :
    kMsg src nrm H (ix2 e f) = ∑ t : Fin 25, (∑ j : Fin 2048,
      ind (src (ix2 e 0) = BitVec.ofNat 32 (nodeAt t j).val) * H (ix2 (nodeAt t j) f)) * nrm (ix2 e 0) := rfl

def kAgg (dst : IMat 1 350208) (msg : Mat 350208 256) (b : Mat 1 256) : Mat 51200 256 :=
  fun i => max ((∑ t : Fin 342, ∑ j : Fin 1024,
      ind (dst (ix2 0 (edgeAt t j)) = BitVec.ofNat 32 (i 0).val) * msg (ix2 (edgeAt t j) ⟨(i 1).val, idx2_lt1 i⟩))
      + b (ix2 0 ⟨(i 1).val, idx2_lt1 i⟩)) 0

theorem kAgg_ix2 (dst : IMat 1 350208) (msg : Mat 350208 256) (b : Mat 1 256) (n : Fin 51200) (f : Fin 256) :
    kAgg dst msg b (ix2 n f) = max ((∑ t : Fin 342, ∑ j : Fin 1024,
      ind (dst (ix2 0 (edgeAt t j)) = BitVec.ofNat 32 n.val) * msg (ix2 (edgeAt t j) f)) + b (ix2 0 f)) 0 := rfl

def rConv (src dst : Fin 350000 → Fin 50000) (nrm : Fin 350000 → EReal) (H : Mat 50000 256) (b : Fin 256 → EReal) :
    Mat 50000 256 :=
  fun i => max ((∑ e ∈ Finset.univ.filter (fun e : Fin 350000 => (dst e).val = (i 0).val),
      H (ix2 (src e) ⟨(i 1).val, idx2_lt1 i⟩) * nrm e) + b ⟨(i 1).val, idx2_lt1 i⟩) 0

theorem rConv_ix2 (src dst : Fin 350000 → Fin 50000) (nrm : Fin 350000 → EReal) (H : Mat 50000 256) (b : Fin 256 → EReal)
    (n : Fin 50000) (f : Fin 256) :
    rConv src dst nrm H b (ix2 n f) = max ((∑ e ∈ Finset.univ.filter (fun e : Fin 350000 => (dst e).val = n.val),
      H (ix2 (src e) f) * nrm e) + b f) 0 := rfl

def InRange (x1 : IMat 2 300000) : Prop := ∀ i, 0 ≤ (x1 i).toInt ∧ (x1 i).toInt < 50000

theorem toNat_lt_of_range {v : BitVec 32} (h : 0 ≤ v.toInt ∧ v.toInt < 50000) : v.toNat < 50000 := by
  have := BitVec.toInt_eq_toNat_cond v
  split at this <;> omega

theorem eq_ofNat_of_range {v : BitVec 32} (h : 0 ≤ v.toInt ∧ v.toInt < 50000) : v = BitVec.ofNat 32 v.toNat := by
  simp

-- A node's word read signed is the node's number.
theorem toInt_node (k : Fin 50000) : (BitVec.ofNat 32 k.val).toInt = (k.val : ℤ) := by
  have hk := k.isLt
  have h1 : (BitVec.ofNat 32 k.val).toNat = k.val := by rw [BitVec.toNat_ofNat]; exact Nat.mod_eq_of_lt (by omega)
  rw [BitVec.toInt_eq_toNat_of_lt (by rw [h1]; omega), h1]

def endOf (x1 : IMat 2 300000) (hr : InRange x1) (row : Fin 2) (e : Fin 350000) : Fin 50000 :=
  if h : e.val < 300000 then ⟨(x1 (ix2 row ⟨e.val, h⟩)).toNat, toNat_lt_of_range (hr _)⟩
  else ⟨e.val - 300000, by have := e.isLt; omega⟩

theorem endOf_lt (x1 : IMat 2 300000) (hr : InRange x1) (row : Fin 2) (e : Fin 350000) (h : e.val < 300000) :
    endOf x1 hr row e = ⟨(x1 (ix2 row ⟨e.val, h⟩)).toNat, toNat_lt_of_range (hr _)⟩ := dif_pos h

theorem endOf_ge (x1 : IMat 2 300000) (hr : InRange x1) (row : Fin 2) (e : Fin 350000) (h : ¬ e.val < 300000) :
    endOf x1 hr row e = ⟨e.val - 300000, by have := e.isLt; omega⟩ := dif_neg h

end Cert.Spec

end
-- ==== Proof.KI.Val0.lean ====
import proofs.«146792_j51445118271859_1_alg».proof.Proof.KI.Reg0
import proofs.«146792_j51445118271859_1_alg».proof.Proof.Spec
import Idealize.ShloMosaic.Lib.Pipeline.Value
import Idealize.ShloMosaic.Lib.StackMember
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

-- Over the extended reals the payload is the row-by-column product.
theorem pay0_apply (x0 : Vec Ideal S2048x128 .f32) (x1 : Vec Ideal S128x256 .f32) (p : Fin 2048) (q : Fin 256) :
    k0_pay1 x0 x1 (ix2 p q) = ∑ k : Fin 128, x0 (ix2 p k) * x1 (ix2 k q) := by
  unfold k0_pay1
  rw [shapeCast_self, show dot_S2048x128_S128x256_S2048x256_1_0_0_1_n_n = DotDims.plain 2048 128 256 from rfl,
    matmul_zero_eq_dotGeneral, StackMember.dotGeneral_plain_apply]
  rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (t : Fin cfg0.N)

-- Entry x of the left factor's block at t is the array's entry at row 2048 t + x 0, column x 1.
theorem iblk0_0_apply (x : S2048x128.Idx) (i : S51200x128.Idx) (h0 : (i 0).val = t.val * 2048 + (x 0).val)
    (h1 : (i 1).val = (x 1).val) : (iblk0 V c 0 t : Vec Ideal S2048x128 .f32) x = (V c main_v40 : S51200x128.Idx → EReal) i := by
  obtain ⟨e0, e1, -⟩ := idx_facts0 t
  unfold iblk0
  rw [View.read_apply]
  exact congrArg (V c main_v40) (Shape.idx_ext₂ (by show win0_0.index t (0 : Fin 2) * 2048 + 1 * (x 0).val = _; omega)
    (by show win0_0.index t (1 : Fin 2) * 128 + 1 * (x 1).val = _; omega))

-- The right factor's block at t is the whole array.
theorem iblk0_1_apply (x : S128x256.Idx) : (iblk0 V c 1 t : Vec Ideal S128x256 .f32) x = (V c main_arg2 : S128x256.Idx → EReal) x := by
  obtain ⟨-, -, e0, e1, -⟩ := idx_facts0 t
  unfold iblk0
  rw [View.read_apply]
  exact congrArg (V c main_arg2) (Shape.idx_ext₂ (by show win0_1.index t (0 : Fin 2) * 128 + 1 * (x 0).val = _; omega)
    (by show win0_1.index t (1 : Fin 2) * 256 + 1 * (x 1).val = _; omega))

-- At point t the output block is block t of the product of the two arrays.
theorem flushed0_eq : (dat0 (F := Ideal) V c).flushed 2 t = ((cfg0.win 2).blk t).view.read (Elt Ideal)
    (Cert.Spec.lin (V c main_v40 : S51200x128.Idx → EReal) (V c main_arg2 : S128x256.Idx → EReal)) := by
  obtain ⟨-, -, -, -, e0, e1⟩ := idx_facts0 t
  funext j
  obtain ⟨p, q, rfl⟩ : ∃ (p : Fin 2048) (q : Fin 256), j = ix2 p q := ⟨j 0, j 1, eq_ix2 j⟩
  have eq : (⟨_, idx2_lt1 (((cfg0.win 2).blk t).view.emb (ix2 p q))⟩ : Fin 256) = q :=
    Fin.ext (by show win0_2.index t (1 : Fin 2) * 256 + 1 * q.val = q.val; omega)
  show k0_pay1 (iblk0 V c 0 t) (iblk0 V c 1 t) (ix2 p q) = Cert.Spec.lin _ _ (((cfg0.win 2).blk t).view.emb (ix2 p q))
  unfold Cert.Spec.lin
  rw [pay0_apply, eq]
  refine Finset.sum_congr rfl fun k _ => ?_
  rw [iblk0_0_apply V c t (ix2 p k) (ix2 ⟨_, idx2_lt0 (((cfg0.win 2).blk t).view.emb (ix2 p q))⟩ k)
    (by show win0_2.index t (0 : Fin 2) * 2048 + 1 * p.val = t.val * 2048 + p.val; omega) rfl, iblk0_1_apply]

-- Every index of the product array lies in the block of the point its row falls under.
theorem cover0 (i : S51200x256.Idx) : ∃ t : Fin cfg0.N, (cfg0.win 2).flush t = true ∧ i ∈ ((cfg0.win 2).blk t).view.set := by
  have hi0 : (i 0).val < 51200 := (i 0).isLt
  have hi1 : (i 1).val < 256 := (i 1).isLt
  have ht : (i 0).val / 2048 < 25 := by omega
  obtain ⟨-, -, -, -, e0, e1⟩ := idx_facts0 ⟨_, ht⟩
  refine ⟨⟨_, ht⟩, flush0_2 _, ?_⟩
  show i ∈ ((View.whole main_v41).slice (win0_2.rect ⟨_, ht⟩)).set
  rw [View.set_slice_whole, Rect.mem_set_unit]
  intro a
  match a with
  | ⟨0, _⟩ => show win0_2.index _ (0 : Fin 2) * 2048 ≤ (i 0).val ∧ (i 0).val < win0_2.index _ (0 : Fin 2) * 2048 + 2048; rw [e0]; show (i 0).val / 2048 * 2048 ≤ _ ∧ _ < (i 0).val / 2048 * 2048 + 2048; omega
  | ⟨1, _⟩ => show win0_2.index _ (1 : Fin 2) * 256 ≤ (i 1).val ∧ (i 1).val < win0_2.index _ (1 : Fin 2) * 256 + 256; rw [e1]; omega

theorem final0 : ((dat0 (F := Ideal) V c).arrAt 2 cfg0.N : S51200x256.Idx → EReal)
    = Cert.Spec.lin (V c main_v40 : S51200x128.Idx → EReal) (V c main_arg2 : S128x256.Idx → EReal) :=
  (dat0 (F := Ideal) V c).arrAt_eq_of_cover 2 _ (fun t _ => flushed0_eq V c t) cover0

end Cert.KernelIdeal.Hand

end
-- ==== Proof.KI.Val1.lean ====
import proofs.«146792_j51445118271859_1_alg».proof.Proof.KI.Reg1
import proofs.«146792_j51445118271859_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

section Payload

theorem zeros1 : (![0, 0] : Fin 2 → Nat) = fun _ => 0 := funext fun a => by fin_cases a <;> rfl

theorem dot1_plain : dot_S1024x2048_S2048x256_S1024x256_1_0_0_1_n_n = DotDims.plain 1024 2048 256 := rfl

theorem node_word1 (ni j : Nat) :
    IntOp.addi (Scalar.muli (BitVec.ofNat 32 ni) 2048#32) (BitVec.ofNat 32 j) = BitVec.ofNat 32 (ni * 2048 + j) := by
  show BitVec.ofNat 32 ni * 2048#32 + BitVec.ofNat 32 j = _
  rw [BitVec.ofNat_add, BitVec.ofNat_mul]

theorem onehot1 (a b : BitVec 32) :
    (FloatOps.sitofp (F := Ideal) .f32 (BitVec.setWidth 32 (IntOp.cmpi .eq a b)) : EReal) = Cert.Spec.ind (a = b) := by
  show (((BitVec.setWidth 32 (IntOp.cmpi .eq a b)).toInt : ℝ) : EReal) = _
  by_cases h : a = b
  · subst h
    rw [Cert.Spec.ind_pos rfl]
    simp [IntOp.cmpi]
  · rw [Cert.Spec.ind_neg h]
    have hb : (a == b) = false := by simpa using h
    simp [IntOp.cmpi, hb]

theorem k1_pay2_apply (i : grid1.Coords) (src : Vec Ideal S1024x1 .i32) (h : Vec Ideal S2048x256 .f32)
    (acc : Vec Ideal S1024x256 .f32) (nrm : Vec Ideal S1024x1 .f32) (p : Fin 1024) (q : Fin 256) :
    k1_pay2 i src h acc nrm (ix2 p q)
      = acc (ix2 p q) + (∑ j : Fin 2048, Cert.Spec.ind (src (ix2 p 0) = BitVec.ofNat 32 ((i 1).val * 2048 + j.val)) * h (ix2 j q))
          * nrm (ix2 p 0) := by
  unfold k1_pay2
  dsimp only
  simp only [shapeCast_self]
  rw [addf_apply, mulf_apply, dot1_plain, matmul_zero_eq_dotGeneral, StackMember.dotGeneral_plain_apply]
  congr 1
  congr 1
  · refine Finset.sum_congr rfl fun j _ => ?_
    rw [truncf_apply, truncf_apply, sitofp_apply, extui_apply]
    show FloatOps.sitofp (F := Ideal) .f32 (BitVec.setWidth 32 (IntOp.cmpi .eq
        (broadcastTo S1024x2048 src broadcasts_S1024x1_S1024x2048 (ix2 p j))
        (broadcastTo S1024x2048 (addi (broadcast S1x2048 (Scalar.muli (BitVec.ofNat 32 (i 1).val) 2048#32)) (iota .tc S1x2048 32 [1] iota_S1x2048_d1_w32)) broadcasts_S1x2048_S1024x2048 (ix2 p j)))) * h (ix2 j q) = _
    rw [broadcastTo_apply src broadcasts_S1024x1_S1024x2048 (ix2 p j) (ix2 p 0) (fun a => by match a with | ⟨0, _⟩ => rfl | ⟨1, _⟩ => rfl),
      broadcastTo_1b_ab_apply]
    show FloatOps.sitofp (F := Ideal) .f32 (BitVec.setWidth 32 (IntOp.cmpi .eq (src (ix2 p 0))
        (IntOp.addi (Scalar.muli (BitVec.ofNat 32 (i 1).val) 2048#32) (iota .tc S1x2048 32 [1] iota_S1x2048_d1_w32 (ix2 (0 : Fin 1) j))))) * h (ix2 j q) = _
    rw [iota_single_apply, onehot1]
    show Cert.Spec.ind (src (ix2 p 0) = IntOp.addi (Scalar.muli (BitVec.ofNat 32 (i 1).val) 2048#32) (BitVec.ofNat 32 j.val)) * h (ix2 j q) = _
    rw [node_word1]
  · exact broadcastTo_apply nrm broadcasts_S1024x1_S1024x256 (ix2 p q) (ix2 p 0) (fun a => by match a with | ⟨0, _⟩ => rfl | ⟨1, _⟩ => rfl)

theorem k1_pay1_apply (y : S1024x256.Idx) : (k1_pay1 (F := Ideal)) y = 0 := by
  unfold k1_pay1
  rw [shapeCast_self]
  show Ideal.ofBits .f32 0x00000000#32 = 0
  exact Ideal.ofBits_zero_f32

theorem k1_pay3_apply (v : Vec Ideal S1024x256 .f32) (y : S1024x256.Idx) : k1_pay3 v y = v y := rfl

section Cases

variable {F : FTy → Type} [FloatOps F] (c : Dev nD) (i : grid1.Coords) (arg2 : Memref sig .tc .vmem S1024x1 .i32) (harg2 : arg2.IsWhole) (arg3 : Memref sig .tc .vmem S1024x1 .f32) (harg3 : arg3.IsWhole) (arg4 : Memref sig .tc .vmem S2048x256 .f32) (harg4 : arg4.IsWhole) (arg5 : Memref sig .tc .vmem S1024x256 .bf16) (harg5 : arg5.IsWhole) (arg6 : Memref sig .tc .vmem S1024x256 .f32) (harg6 : arg6.IsWhole)
  (x0 : Vec F S1024x1 .i32) (x1 : Vec F S1024x1 .f32) (x2 : Vec F S2048x256 .f32) (xs0 : Vec F S1024x256 .f32)

-- What each case's pieces leave in the accumulator: the entry contents (zero after a reset) plus the tile's contribution.
theorem accA1_eq (hc0 : cond1_0 i) (hc1 : ¬cond1_1 i) :
    View.canon (kernelRun1_A c i arg2 harg2 arg3 harg3 arg4 harg4 arg5 harg5 arg6 harg6 hc0 hc1 x0 x1 x2).2.1 = k1_pay2 i x0 x2 k1_pay1 x1 := by
  unfold kernelRun1_A
  dsimp only
  sl_unfold_words
  rw [View.canon_cons_unit_zero (S := S1024x256) zeros1, View.readCov_unit_zero (S := S1024x256) _ zeros1]
  simp only [View.readAt_eq_ld, harg2.read_unread, harg3.read_unread, harg4.read_unread, harg6.read_unread,
    View.ld_unit_zero (S := S1024x1) zeros1, View.ld_unit_zero (S := S2048x256) zeros1, View.ld_unit_zero (S := S1024x256) zeros1]

theorem accB1_eq (hc0 : ¬cond1_0 i) (hc1 : ¬cond1_1 i) :
    View.canon (kernelRun1_B c i arg2 harg2 arg3 harg3 arg4 harg4 arg5 harg5 arg6 harg6 hc0 hc1 x0 x1 x2 xs0).2.1 = k1_pay2 i x0 x2 xs0 x1 := by
  unfold kernelRun1_B
  dsimp only
  rw [View.canon_unit_zero zeros1]
  simp only [View.readAt_eq_ld, harg2.read_unread, harg3.read_unread, harg4.read_unread, harg6.read_unread,
    View.ld_unit_zero (S := S1024x1) zeros1, View.ld_unit_zero (S := S2048x256) zeros1, View.ld_unit_zero (S := S1024x256) zeros1]

theorem accC1_eq (hc0 : ¬cond1_0 i) (hc1 : cond1_1 i) :
    View.canon (kernelRun1_C c i arg2 harg2 arg3 harg3 arg4 harg4 arg5 harg5 arg6 harg6 hc0 hc1 x0 x1 x2 xs0).2.1 = k1_pay2 i x0 x2 xs0 x1 := by
  unfold kernelRun1_C
  dsimp only
  sl_unfold_words
  rw [View.canon_unit_zero zeros1]
  simp only [View.readAt_eq_ld, harg2.read_unread, harg3.read_unread, harg4.read_unread, harg6.read_unread,
    View.ld_unit_zero (S := S1024x1) zeros1, View.ld_unit_zero (S := S2048x256) zeros1, View.ld_unit_zero (S := S1024x256) zeros1]

-- Case C stores the accumulator's new contents, rounded, to the output block.
theorem outC1_eq (hc0 : ¬cond1_0 i) (hc1 : cond1_1 i) :
    View.canon (kernelRun1_C c i arg2 harg2 arg3 harg3 arg4 harg4 arg5 harg5 arg6 harg6 hc0 hc1 x0 x1 x2 xs0).1 = k1_pay3 (k1_pay2 i x0 x2 xs0 x1) := by
  unfold kernelRun1_C
  dsimp only
  sl_unfold_words
  rw [View.canon_unit_zero zeros1, View.readCov_unit_zero (S := S1024x256) _ zeros1]
  simp only [View.readAt_eq_ld, harg2.read_unread, harg3.read_unread, harg4.read_unread, harg6.read_unread,
    View.ld_unit_zero (S := S1024x1) zeros1, View.ld_unit_zero (S := S2048x256) zeros1, View.ld_unit_zero (S := S1024x256) zeros1]

end Cases

end Payload

section Value1

variable (V : (c : Dev nD) → (b : Ref sig .tc) → Buf (Elt Ideal) ((c : Thread nD τ).loc b))

theorem lt_N1 (t : Fin cfg1.N) : t.val < 8550 := lt_of_lt_of_eq t.isLt (show cfg1.N = 8550 from N_1)

theorem coordE1 (t : Fin cfg1.N) : (grid1.coords t 0).val = t.val / 25 := by
  show t.val / grid1.stride 0 % 342 = t.val / 25
  rw [show grid1.stride 0 = 25 from by decide]
  have := lt_N1 t
  omega

theorem word_val1 (x : ℕ) (h : x < 8550) : (BitVec.ofNat 32 x).toNat = x := by
  rw [BitVec.toNat_ofNat]
  exact Nat.mod_eq_of_lt (by omega)

theorem idx1_0_0 (t : Fin cfg1.N) : win1_0.index t (0 : Fin 2) = t.val / 25 := by
  show (BitVec.ofNat 32 (grid1.coords t 0).val).toNat = _
  rw [coordE1, word_val1 _ (by have := lt_N1 t; omega)]
theorem idx1_0_1 (t : Fin cfg1.N) : win1_0.index t (1 : Fin 2) = 0 := rfl
theorem idx1_1_0 (t : Fin cfg1.N) : win1_1.index t (0 : Fin 2) = t.val / 25 := by
  show (BitVec.ofNat 32 (grid1.coords t 0).val).toNat = _
  rw [coordE1, word_val1 _ (by have := lt_N1 t; omega)]
theorem idx1_1_1 (t : Fin cfg1.N) : win1_1.index t (1 : Fin 2) = 0 := rfl
theorem idx1_2_0 (t : Fin cfg1.N) : win1_2.index t (0 : Fin 2) = t.val % 25 := by
  show (BitVec.ofNat 32 (grid1.coords t 1).val).toNat = _
  rw [coord1_1, word_val1 _ (by omega)]
theorem idx1_2_1 (t : Fin cfg1.N) : win1_2.index t (1 : Fin 2) = 0 := rfl
theorem idx1_3_0 (t : Fin cfg1.N) : win1_3.index t (0 : Fin 2) = t.val / 25 := by
  show (BitVec.ofNat 32 (grid1.coords t 0).val).toNat = _
  rw [coordE1, word_val1 _ (by have := lt_N1 t; omega)]
theorem idx1_3_1 (t : Fin cfg1.N) : win1_3.index t (1 : Fin 2) = 0 := rfl

def eblk1 (t : Fin cfg1.N) : Fin 342 := ⟨t.val / 25, by have := lt_N1 t; omega⟩
def ntile1 (t : Fin cfg1.N) : Fin 25 := ⟨t.val % 25, Nat.mod_lt _ (by decide)⟩

theorem iblk1_0_apply (c : Dev nD) (t : Fin cfg1.N) (x : S1024x1.Idx) (i : S350208x1.Idx)
    (h0 : (i 0).val = t.val / 25 * 1024 + (x 0).val) (h1 : (i 1).val = (x 1).val) :
    (iblk1 V c 0 t : Vec Ideal S1024x1 .i32) x = (V c main_v36 : S350208x1.Idx → BitVec 32) i := by
  have e0 := idx1_0_0 t
  have e1 := idx1_0_1 t
  unfold iblk1
  rw [View.read_apply]
  show V c main_v36 _ = V c main_v36 _
  congr 1
  funext a
  apply Fin.ext
  match a with
  | ⟨0, _⟩ => show win1_0.index t (0 : Fin 2) * 1024 + 1 * (x 0).val = (i 0).val; rw [e0, h0]; omega
  | ⟨1, _⟩ => show win1_0.index t (1 : Fin 2) * 1 + 1 * (x 1).val = (i 1).val; rw [e1, h1]; omega

theorem iblk1_1_apply (c : Dev nD) (t : Fin cfg1.N) (x : S1024x1.Idx) (i : S350208x1.Idx)
    (h0 : (i 0).val = t.val / 25 * 1024 + (x 0).val) (h1 : (i 1).val = (x 1).val) :
    (iblk1 V c 1 t : Vec Ideal S1024x1 .f32) x = (V c main_v38 : S350208x1.Idx → EReal) i := by
  have e0 := idx1_1_0 t
  have e1 := idx1_1_1 t
  unfold iblk1
  rw [View.read_apply]
  show V c main_v38 _ = V c main_v38 _
  congr 1
  funext a
  apply Fin.ext
  match a with
  | ⟨0, _⟩ => show win1_1.index t (0 : Fin 2) * 1024 + 1 * (x 0).val = (i 0).val; rw [e0, h0]; omega
  | ⟨1, _⟩ => show win1_1.index t (1 : Fin 2) * 1 + 1 * (x 1).val = (i 1).val; rw [e1, h1]; omega

theorem iblk1_2_apply (c : Dev nD) (t : Fin cfg1.N) (x : S2048x256.Idx) (i : S51200x256.Idx)
    (h0 : (i 0).val = t.val % 25 * 2048 + (x 0).val) (h1 : (i 1).val = (x 1).val) :
    (iblk1 V c 2 t : Vec Ideal S2048x256 .f32) x = (V c main_v41 : S51200x256.Idx → EReal) i := by
  have e0 := idx1_2_0 t
  have e1 := idx1_2_1 t
  unfold iblk1
  rw [View.read_apply]
  show V c main_v41 _ = V c main_v41 _
  congr 1
  funext a
  apply Fin.ext
  match a with
  | ⟨0, _⟩ => show win1_2.index t (0 : Fin 2) * 2048 + 1 * (x 0).val = (i 0).val; rw [e0, h0]; omega
  | ⟨1, _⟩ => show win1_2.index t (1 : Fin 2) * 256 + 1 * (x 1).val = (i 1).val; rw [e1, h1]; omega

def tileTerm1 (c : Dev nD) (e : Fin 350208) (f : Fin 256) (s : Fin 25) : EReal :=
  (∑ j : Fin 2048, Cert.Spec.ind ((V c main_v36 : S350208x1.Idx → BitVec 32) (ix2 e 0) = BitVec.ofNat 32 (Cert.Spec.nodeAt s j).val)
      * (V c main_v41 : S51200x256.Idx → EReal) (ix2 (Cert.Spec.nodeAt s j) f))
    * (V c main_v38 : S350208x1.Idx → EReal) (ix2 e 0)

theorem kMsg1_eq (c : Dev nD) (e : Fin 350208) (f : Fin 256) :
    Cert.Spec.kMsg (V c main_v36 : S350208x1.Idx → BitVec 32) (V c main_v38 : S350208x1.Idx → EReal) (V c main_v41 : S51200x256.Idx → EReal) (ix2 e f) = ∑ s : Fin 25, tileTerm1 V c e f s := rfl

theorem step1 (c : Dev nD) (t : Fin cfg1.N) (acc : Vec Ideal S1024x256 .f32) (p : Fin 1024) (q : Fin 256) :
    k1_pay2 (grid1.coords t) (iblk1 V c 0 t) (iblk1 V c 2 t) acc (iblk1 V c 1 t) (ix2 p q)
      = acc (ix2 p q) + tileTerm1 V c (Cert.Spec.edgeAt (eblk1 t) p) q (ntile1 t) := by
  rw [k1_pay2_apply, iblk1_0_apply V c t (ix2 p 0) (ix2 (Cert.Spec.edgeAt (eblk1 t) p) 0) rfl rfl,
    iblk1_1_apply V c t (ix2 p 0) (ix2 (Cert.Spec.edgeAt (eblk1 t) p) 0) rfl rfl, coord1_1 t]
  unfold tileTerm1
  refine congrArg (fun S => acc (ix2 p q) + S * _) (Finset.sum_congr rfl fun j _ => ?_)
  rw [iblk1_2_apply V c t (ix2 j q) (ix2 (Cert.Spec.nodeAt (ntile1 t) j) q) rfl rfl]
  rfl

def part1 (c : Dev nD) (e : Fin 350208) (f : Fin 256) (k : ℕ) : EReal :=
  ∑ s ∈ Finset.univ.filter (fun s : Fin 25 => s.val < k), tileTerm1 V c e f s

theorem part1_zero (c : Dev nD) (e : Fin 350208) (f : Fin 256) : part1 V c e f 0 = 0 := by
  unfold part1
  rw [Finset.filter_false_of_mem (fun s _ => Nat.not_lt_zero _), Finset.sum_empty]

theorem part1_succ (c : Dev nD) (e : Fin 350208) (f : Fin 256) (k : ℕ) (hk : k < 25) :
    part1 V c e f (k + 1) = part1 V c e f k + tileTerm1 V c e f ⟨k, hk⟩ := by
  unfold part1
  have hs : Finset.univ.filter (fun s : Fin 25 => s.val < k + 1)
      = insert (⟨k, hk⟩ : Fin 25) (Finset.univ.filter (fun s : Fin 25 => s.val < k)) := by
    ext s
    simp only [Finset.mem_filter, Finset.mem_univ, true_and, Finset.mem_insert, Fin.ext_iff]
    omega
  rw [hs, Finset.sum_insert (by simp), add_comm]

theorem part1_all (c : Dev nD) (e : Fin 350208) (f : Fin 256) :
    part1 V c e f 25 = Cert.Spec.kMsg (V c main_v36 : S350208x1.Idx → BitVec 32) (V c main_v38 : S350208x1.Idx → EReal) (V c main_v41 : S51200x256.Idx → EReal) (ix2 e f) := by
  rw [kMsg1_eq]
  unfold part1
  rw [Finset.filter_true_of_mem (fun s _ => s.isLt)]

theorem acc1_eq (c : Dev nD) : ∀ (n : ℕ) (hn : n < cfg1.N) (p : Fin 1024) (q : Fin 256),
    (outsAt1 V c n hn).2 (ix2 p q) = part1 V c (Cert.Spec.edgeAt (eblk1 ⟨n, hn⟩) p) q (n % 25 + 1)
  | 0, hn, p, q => by
    rw [outsAt1_A V c ⟨0, hn⟩ (Nat.zero_mod 25)]
    unfold outs1 runA1
    dsimp only
    erw [accA1_eq]
    rw [step1, k1_pay1_apply, zero_add, part1_succ V c _ q 0 (by decide), part1_zero, zero_add]
    rfl
  | n + 1, hn, p, q => by
    have hlt : (n + 1) % 25 < 25 := Nat.mod_lt _ (by decide)
    by_cases h0 : (n + 1) % 25 = 0
    · rw [outsAt1_A V c ⟨n + 1, hn⟩ h0]
      unfold outs1 runA1
      dsimp only
      erw [accA1_eq]
      rw [step1, k1_pay1_apply, zero_add, h0, part1_succ V c _ q 0 (by decide), part1_zero, zero_add]
      exact congrArg (tileTerm1 V c _ q) (Fin.ext h0)
    · have ih := acc1_eq c n (Nat.lt_of_succ_lt hn) p q
      have hE : eblk1 ⟨n, Nat.lt_of_succ_lt hn⟩ = eblk1 ⟨n + 1, hn⟩ := Fin.ext (by show n / 25 = (n + 1) / 25; omega)
      have hk : n % 25 + 1 = (n + 1) % 25 := by omega
      rw [hE, hk] at ih
      by_cases h1 : (n + 1) % 25 = 24
      · rw [outsAt1_C V c ⟨n + 1, hn⟩ h1]
        unfold outs1 runC1
        dsimp only
        erw [accC1_eq]
        rw [step1]
        unfold prev1
        show (outsAt1 V c n _).2 (ix2 p q) + _ = _
        rw [ih, part1_succ V c _ q ((n + 1) % 25) hlt]
        rfl
      · rw [outsAt1_B V c ⟨n + 1, hn⟩ h0 h1]
        unfold outs1 runB1
        dsimp only
        erw [accB1_eq]
        rw [step1]
        unfold prev1
        show (outsAt1 V c n _).2 (ix2 p q) + _ = _
        rw [ih, part1_succ V c _ q ((n + 1) % 25) hlt]
        rfl

theorem out1_at (c : Dev nD) (t : Fin cfg1.N) (h24 : t.val % 25 = 24) (p : Fin 1024) (q : Fin 256) (i : S350208x256.Idx)
    (hr : (i 0).val = t.val / 25 * 1024 + p.val) (hc : (i 1).val = q.val) :
    (outsAt1 V c t.val t.isLt).1 (ix2 p q) = Cert.Spec.kMsg (V c main_v36 : S350208x1.Idx → BitVec 32) (V c main_v38 : S350208x1.Idx → EReal) (V c main_v41 : S51200x256.Idx → EReal) i := by
  have hacc := acc1_eq V c t.val t.isLt p q
  have hi : i = ix2 (Cert.Spec.edgeAt (eblk1 t) p) q := by
    funext a
    apply Fin.ext
    match a with
    | ⟨0, _⟩ => exact hr
    | ⟨1, _⟩ => exact hc
  rw [outsAt1_C V c t h24] at hacc ⊢
  unfold outs1 runC1 at hacc ⊢
  dsimp only at hacc ⊢
  erw [accC1_eq] at hacc
  erw [outC1_eq]
  rw [k1_pay3_apply, hacc, h24, part1_all, hi]

theorem flushed1_eq (c : Dev nD) (t : Fin cfg1.N) (hf : (cfg1.win 3).flush t = true) :
    (dat1 (F := Ideal) V c).flushed 3 t = ((cfg1.win 3).blk t).view.read (Elt Ideal) (Cert.Spec.kMsg (V c main_v36 : S350208x1.Idx → BitVec 32) (V c main_v38 : S350208x1.Idx → EReal) (V c main_v41 : S51200x256.Idx → EReal)) := by
  have h24 : t.val % 25 = 24 := (flush1_3 t).mp hf
  show (cfg1.win 3).cut (grid1.coords t) ((dat1 V c).after 3 t) = _
  rw [after1_3]
  have e0 := idx1_3_0 t
  have e1 := idx1_3_1 t
  funext j
  show (outsAt1 V c t.val t.isLt).1 j = Cert.Spec.kMsg (V c main_v36 : S350208x1.Idx → BitVec 32) (V c main_v38 : S350208x1.Idx → EReal) (V c main_v41 : S51200x256.Idx → EReal) (((cfg1.win 3).blk t).view.emb j)
  obtain ⟨p, q, rfl⟩ : ∃ (p : Fin 1024) (q : Fin 256), j = ix2 p q := ⟨j 0, j 1, eq_ix2 j⟩
  refine out1_at V c t h24 p q _ ?_ ?_
  · show win1_3.index t (0 : Fin 2) * 1024 + 1 * p.val = _; rw [e0]; omega
  · show win1_3.index t (1 : Fin 2) * 256 + 1 * q.val = _; rw [e1]; omega

theorem mem_blk1 (t : Fin cfg1.N) (i : S350208x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v42).slice (win1_3.rect t)).set ↔ _
  rw [View.set_slice_whole, Rect.mem_set_unit]
  exact Iff.rfl

theorem cover1 (i : S350208x256.Idx) : ∃ t : Fin cfg1.N, (cfg1.win 3).flush t = true ∧ i ∈ ((cfg1.win 3).blk t).view.set := by
  have hi0 : (i 0).val < 350208 := (i 0).isLt
  have hi1 : (i 1).val < 256 := (i 1).isLt
  have hlt : 25 * ((i 0).val / 1024) + 24 < cfg1.N := lt_of_lt_of_eq (by omega : 25 * ((i 0).val / 1024) + 24 < 8550) (N_1).symm
  have e0 := idx1_3_0 ⟨25 * ((i 0).val / 1024) + 24, hlt⟩
  have e1 := idx1_3_1 ⟨25 * ((i 0).val / 1024) + 24, hlt⟩
  refine ⟨⟨25 * ((i 0).val / 1024) + 24, hlt⟩, (flush1_3 _).mpr (by show (25 * ((i 0).val / 1024) + 24) % 25 = 24; omega), ?_⟩
  rw [mem_blk1]
  intro a
  match a with
  | ⟨0, _⟩ =>
    show win1_3.index _ (0 : Fin 2) * 1024 ≤ (i 0).val ∧ (i 0).val < win1_3.index _ (0 : Fin 2) * 1024 + 1024
    rw [e0]
    show (25 * ((i 0).val / 1024) + 24) / 25 * 1024 ≤ _ ∧ _ < (25 * ((i 0).val / 1024) + 24) / 25 * 1024 + 1024
    omega
  | ⟨1, _⟩ =>
    show win1_3.index _ (1 : Fin 2) * 256 ≤ (i 1).val ∧ (i 1).val < win1_3.index _ (1 : Fin 2) * 256 + 256
    rw [e1]
    omega

theorem final1 (c : Dev nD) : ((dat1 (F := Ideal) V c).arrAt 3 cfg1.N : S350208x256.Idx → EReal) = Cert.Spec.kMsg (V c main_v36 : S350208x1.Idx → BitVec 32) (V c main_v38 : S350208x1.Idx → EReal) (V c main_v41 : S51200x256.Idx → EReal) :=
  (dat1 (F := Ideal) V c).arrAt_eq_of_cover 3 (Cert.Spec.kMsg (V c main_v36 : S350208x1.Idx → BitVec 32) (V c main_v38 : S350208x1.Idx → EReal) (V c main_v41 : S51200x256.Idx → EReal))
    (fun t hf => flushed1_eq V c t hf) cover1

end Value1

end Cert.KernelIdeal.Hand

end
-- ==== Proof.KI.Val2.lean ====
import proofs.«146792_j51445118271859_1_alg».proof.Proof.KI.Reg2
import proofs.«146792_j51445118271859_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

section Payload

theorem zeros2 : (![0, 0] : Fin 2 → Nat) = fun _ => 0 := funext fun a => by fin_cases a <;> rfl

section
variable {c : Dev nD} {i : grid2.Coords} {arg2 : Memref sig .tc .vmem S1x1024 .i32} {harg2 : arg2.IsWhole} {arg3 : Memref sig .tc .vmem S1024x256 .bf16} {harg3 : arg3.IsWhole} {arg4 : Memref sig .tc .vmem S1x256 .f32} {harg4 : arg4.IsWhole} {arg5 : Memref sig .tc .vmem S2048x256 .f32} {harg5 : arg5.IsWhole} {arg6 : Memref sig .tc .vmem S2048x256 .f32} {harg6 : arg6.IsWhole}
  {x0 : Vec Ideal S1x1024 .i32} {x1 : Vec Ideal S1024x256 .bf16} {x2 : Vec Ideal S1x256 .f32}

-- Every list of pieces is one whole-block store, so its contents are that store's payload.
theorem runs2_eq :
    (∀ h0 h1, View.canon (kernelRun2_A c i arg2 harg2 arg3 harg3 arg4 harg4 arg5 harg5 arg6 harg6 h0 h1 x0 x1 x2).2.1 = k2_pay2 i x0 x1 (k2_pay1 (F := Ideal)))
    ∧ (∀ xs0 h0 h1, View.canon (kernelRun2_B c i arg2 harg2 arg3 harg3 arg4 harg4 arg5 harg5 arg6 harg6 h0 h1 x0 x1 x2 xs0).2.1 = k2_pay2 i x0 x1 xs0)
    ∧ (∀ xs0 h0 h1, View.canon (kernelRun2_C c i arg2 harg2 arg3 harg3 arg4 harg4 arg5 harg5 arg6 harg6 h0 h1 x0 x1 x2 xs0).2.1 = k2_pay2 i x0 x1 xs0)
    ∧ ∀ xs0 h0 h1, View.canon (kernelRun2_C c i arg2 harg2 arg3 harg3 arg4 harg4 arg5 harg5 arg6 harg6 h0 h1 x0 x1 x2 xs0).1 = k2_pay3 (k2_pay2 i x0 x1 xs0) x2 := by
  refine ⟨fun _ _ => ?_, fun _ _ _ => ?_, fun _ _ _ => ?_, fun _ _ _ => ?_⟩
  all_goals
    first | unfold kernelRun2_A | unfold kernelRun2_B | unfold kernelRun2_C
    dsimp only
    sl_unfold_words
    rw [View.canon_cons_unit_zero (S := S2048x256) zeros2]
    try rw [View.readCov_unit_zero (S := S2048x256) _ zeros2]
    simp only [View.readAt_eq_ld, harg2.read_unread, harg3.read_unread, harg4.read_unread, harg5.read_unread, harg6.read_unread, View.ld_unit_zero (S := S1x1024) zeros2, View.ld_unit_zero (S := S1024x256) zeros2, View.ld_unit_zero (S := S1x256) zeros2, View.ld_unit_zero (S := S2048x256) zeros2]

end

private theorem eqWord2 (a b : BitVec 32) :
    ((((IntOp.cmpi .eq a b).setWidth 32).toInt : ℝ) : EReal) = Cert.Spec.ind (a = b) := by
  unfold Cert.Spec.ind IntOp.cmpi
  by_cases h : a = b
  · simp [h]
  · simp [h, beq_eq_false_iff_ne.mpr h]

private theorem nodeWord2 (n p : ℕ) :
    IntOp.addi (IntOp.muli (BitVec.ofNat 32 n) 2048#32) (BitVec.ofNat 32 (0 * 2048 + p)) = BitVec.ofNat 32 (n * 2048 + p) := by
  unfold IntOp.addi IntOp.muli
  rw [Nat.zero_mul, Nat.zero_add, BitVec.ofNat_add, BitVec.ofNat_mul]

theorem dot2_plain : dot_S2048x1024_S1024x256_S2048x256_1_0_0_1_n_n = DotDims.plain 2048 1024 256 := rfl

theorem k2_pay2_apply (i : grid2.Coords) (dst : Vec Ideal S1x1024 .i32) (msg : Vec Ideal S1024x256 .bf16)
    (acc : Vec Ideal S2048x256 .f32) (p : Fin 2048) (q : Fin 256) :
    (k2_pay2 i dst msg acc (ix2 p q) : EReal)
      = acc (ix2 p q) + ∑ j : Fin 1024, Cert.Spec.ind ((dst (ix2 0 j) : BitVec 32) = BitVec.ofNat 32 ((i 0).val * 2048 + p.val)) * msg (ix2 j q) := by
  unfold k2_pay2
  simp only [shapeCast_self]
  rw [addf_apply, dot2_plain, matmul_zero_eq_dotGeneral, StackMember.dotGeneral_plain_apply]
  refine congrArg (acc (ix2 p q) + ·) (Finset.sum_congr rfl fun j _ => ?_)
  refine congrArg (· * msg (ix2 j q)) ?_
  rw [truncf_apply, sitofp_apply, extui_apply]
  show ((((IntOp.cmpi .eq _ _).setWidth 32).toInt : ℝ) : EReal) = _
  rw [broadcastTo_1b_ab_apply]
  rw [broadcastTo_apply _ _ (ix2 p j) (ix2 p (0 : Fin 1)) (fun ax => by
    match ax with
    | ⟨0, _⟩ => rfl
    | ⟨1, _⟩ => rfl)]
  rw [eqWord2]
  refine congrArg (fun w => Cert.Spec.ind ((dst (ix2 0 j) : BitVec 32) = w)) ?_
  exact nodeWord2 (i 0).val p.val

theorem k2_pay1_apply (x : S2048x256.Idx) : (k2_pay1 (F := Ideal) x : EReal) = 0 := by
  unfold k2_pay1
  rw [shapeCast_self]
  show Ideal.ofBits .f32 0x00000000#32 = 0
  exact Ideal.ofBits_zero_f32

theorem k2_pay3_apply (acc : Vec Ideal S2048x256 .f32) (b : Vec Ideal S1x256 .f32) (p : Fin 2048) (q : Fin 256) :
    (k2_pay3 acc b (ix2 p q) : EReal) = max (acc (ix2 p q) + b (ix2 0 q)) 0 := by
  unfold k2_pay3
  rw [maximumf_apply, addf_apply, shapeCast_self, broadcastTo_1b_ab_apply]
  show max _ (Ideal.ofBits .f32 0x00000000#32) = _
  rw [Ideal.ofBits_zero_f32]

end Payload

section Value2

variable (V : (c : Dev nD) → (b : Ref sig .tc) → Buf (Elt Ideal) ((c : Thread nD τ).loc b))

theorem idx_facts2 : ∀ t : Fin cfg2.N, (grid2.coords t 0).val = t.val / 342
    ∧ win2_0.index t (0 : Fin 2) = 0 ∧ win2_0.index t (1 : Fin 2) = t.val % 342
    ∧ win2_1.index t (0 : Fin 2) = t.val % 342 ∧ win2_1.index t (1 : Fin 2) = 0
    ∧ win2_2.index t (0 : Fin 2) = 0 ∧ win2_2.index t (1 : Fin 2) = 0
    ∧ win2_3.index t (0 : Fin 2) = t.val / 342 ∧ win2_3.index t (1 : Fin 2) = 0 :=
  (by decide +kernel : ∀ t : Fin grid2.N, _)

theorem iblk2_0_apply (c : Dev nD) (t : Fin cfg2.N) (x : S1x1024.Idx) (i : S1x350208.Idx)
    (h0 : (i 0).val = (x 0).val) (h1 : (i 1).val = t.val % 342 * 1024 + (x 1).val) :
    (iblk2 V c 0 t : Vec Ideal S1x1024 .i32) x = (V c main_v37 : S1x350208.Idx → BitVec 32) i := by
  obtain ⟨-, e0, e1, -⟩ := idx_facts2 t
  unfold iblk2
  rw [View.read_apply]
  show V c main_v37 _ = V c main_v37 _
  congr 1
  funext a
  apply Fin.ext
  match a with
  | ⟨0, _⟩ => show win2_0.index t (0 : Fin 2) * 1 + 1 * (x 0).val = (i 0).val; rw [e0, h0]; omega
  | ⟨1, _⟩ => show win2_0.index t (1 : Fin 2) * 1024 + 1 * (x 1).val = (i 1).val; rw [e1, h1]; omega

theorem iblk2_1_apply (c : Dev nD) (t : Fin cfg2.N) (x : S1024x256.Idx) (i : S350208x256.Idx)
    (h0 : (i 0).val = t.val % 342 * 1024 + (x 0).val) (h1 : (i 1).val = (x 1).val) :
    (iblk2 V c 1 t : Vec Ideal S1024x256 .bf16) x = (V c main_v42 : S350208x256.Idx → EReal) i := by
  obtain ⟨-, -, -, e0, e1, -⟩ := idx_facts2 t
  unfold iblk2
  rw [View.read_apply]
  show V c main_v42 _ = V c main_v42 _
  congr 1
  funext a
  apply Fin.ext
  match a with
  | ⟨0, _⟩ => show win2_1.index t (0 : Fin 2) * 1024 + 1 * (x 0).val = (i 0).val; rw [e0, h0]; omega
  | ⟨1, _⟩ => show win2_1.index t (1 : Fin 2) * 256 + 1 * (x 1).val = (i 1).val; rw [e1, h1]; omega

theorem iblk2_2_apply (c : Dev nD) (t : Fin cfg2.N) (x : S1x256.Idx) :
    (iblk2 V c 2 t : Vec Ideal S1x256 .f32) x = (V c main_v43 : S1x256.Idx → EReal) x := by
  obtain ⟨-, -, -, -, -, e0, e1, -⟩ := idx_facts2 t
  unfold iblk2
  rw [View.read_apply]
  show V c main_v43 _ = V c main_v43 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

-- The contribution of edge tile e to the node of id r, at feature q.
def tile2 (c : Dev nD) (r : ℕ) (q : Fin 256) (e : ℕ) : EReal :=
  if h : e < 342 then ∑ j : Fin 1024,
    Cert.Spec.ind ((V c main_v37 : S1x350208.Idx → BitVec 32) (ix2 0 (Cert.Spec.edgeAt ⟨e, h⟩ j)) = BitVec.ofNat 32 r)
      * (V c main_v42 : S350208x256.Idx → EReal) (ix2 (Cert.Spec.edgeAt ⟨e, h⟩ j) q)
  else 0

theorem step2 (c : Dev nD) (t : Fin cfg2.N) (acc : Vec Ideal S2048x256 .f32) (p : Fin 2048) (q : Fin 256) :
    (k2_pay2 (grid2.coords t) (iblk2 V c 0 t) (iblk2 V c 1 t) acc (ix2 p q) : EReal)
      = acc (ix2 p q) + tile2 V c (t.val / 342 * 2048 + p.val) q (t.val % 342) := by
  have hm : t.val % 342 < 342 := Nat.mod_lt _ (by norm_num)
  obtain ⟨eg, -⟩ := idx_facts2 t
  rw [k2_pay2_apply, eg]
  unfold tile2
  rw [dif_pos hm]
  refine congrArg (acc (ix2 p q) + ·) (Finset.sum_congr rfl fun j _ => ?_)
  rw [iblk2_0_apply V c t (ix2 0 j) (ix2 0 (Cert.Spec.edgeAt ⟨t.val % 342, hm⟩ j)) rfl rfl,
    iblk2_1_apply V c t (ix2 j q) (ix2 (Cert.Spec.edgeAt ⟨t.val % 342, hm⟩ j) q) rfl rfl]

theorem acc2_first (c : Dev nD) (t : Fin cfg2.N) (h0 : t.val % 342 = 0) (p : Fin 2048) (q : Fin 256) :
    ((outsAt2 V c t.val t.isLt).2 (ix2 p q) : EReal) = tile2 V c (t.val / 342 * 2048 + p.val) q 0 := by
  rw [outsAt2_A V c t h0]
  unfold ends2 runA2
  dsimp only
  refine (congrFun (runs2_eq.1 _ _) _).trans ?_
  rw [step2, k2_pay1_apply, zero_add, h0]

theorem acc2_next (c : Dev nD) (t : Fin cfg2.N) (h0 : ¬t.val % 342 = 0) (p : Fin 2048) (q : Fin 256) :
    ((outsAt2 V c t.val t.isLt).2 (ix2 p q) : EReal)
      = (outsAt2 V c (t.val - 1) (by omega)).2 (ix2 p q) + tile2 V c (t.val / 342 * 2048 + p.val) q (t.val % 342) := by
  by_cases h1 : t.val % 342 = 341
  · rw [outsAt2_C V c t h1]
    unfold ends2 runC2
    dsimp only
    exact (congrFun (runs2_eq.2.2.1 _ _ _) _).trans (step2 V c t _ p q)
  · rw [outsAt2_B V c t h0 h1]
    unfold ends2 runB2
    dsimp only
    exact (congrFun (runs2_eq.2.1 _ _ _) _).trans (step2 V c t _ p q)

-- By induction on the point: after point k the sum holds the contributions of edge tiles 0 to k mod 342.
theorem acc2_eq (c : Dev nD) (p : Fin 2048) (q : Fin 256) : ∀ (k : ℕ) (hk : k < cfg2.N),
    ((outsAt2 V c k hk).2 (ix2 p q) : EReal) = ∑ e ∈ Finset.range (k % 342 + 1), tile2 V c (k / 342 * 2048 + p.val) q e
  | 0, hk => by
    rw [acc2_first V c ⟨0, hk⟩ (Nat.zero_mod _) p q]
    show tile2 V c (0 / 342 * 2048 + p.val) q 0 = _
    rw [Nat.zero_mod, Finset.sum_range_one]
  | k + 1, hk => by
    by_cases h0 : (k + 1) % 342 = 0
    · rw [acc2_first V c ⟨k + 1, hk⟩ h0 p q]
      show tile2 V c ((k + 1) / 342 * 2048 + p.val) q 0 = _
      rw [h0, Finset.sum_range_one]
    · rw [acc2_next V c ⟨k + 1, hk⟩ h0 p q]
      show (outsAt2 V c k _).2 (ix2 p q) + tile2 V c ((k + 1) / 342 * 2048 + p.val) q ((k + 1) % 342) = _
      have hd : (k + 1) / 342 = k / 342 := by omega
      have hm : (k + 1) % 342 = k % 342 + 1 := by omega
      rw [acc2_eq c p q k (Nat.lt_of_succ_lt hk), hd, hm]
      exact (Finset.sum_range_succ _ _).symm

theorem out2_last (c : Dev nD) (t : Fin cfg2.N) (h1 : t.val % 342 = 341) (p : Fin 2048) (q : Fin 256) :
    ((outsAt2 V c t.val t.isLt).1 (ix2 p q) : EReal)
      = max ((outsAt2 V c t.val t.isLt).2 (ix2 p q) + (V c main_v43 : S1x256.Idx → EReal) (ix2 0 q)) 0 := by
  rw [outsAt2_C V c t h1]
  unfold ends2 runC2
  dsimp only
  refine (congrFun (runs2_eq.2.2.2 _ _ _) _).trans (.trans ?_ (congrArg (fun z => max (z + _) 0) (congrFun (runs2_eq.2.2.1 _ _ _) _).symm))
  rw [k2_pay3_apply, iblk2_2_apply]

-- The aggregation of the arrays the region finds.
def agg2 (c : Dev nD) : S51200x256.Idx → EReal :=
  Cert.Spec.kAgg (V c main_v37 : S1x350208.Idx → BitVec 32) (V c main_v42 : S350208x256.Idx → EReal) (V c main_v43 : S1x256.Idx → EReal)

theorem agg2_at (c : Dev nD) (t : Fin cfg2.N) (h1 : t.val % 342 = 341) (p : Fin 2048) (q : Fin 256) (i : S51200x256.Idx)
    (hr : (i 0).val = t.val / 342 * 2048 + p.val) (hc : (i 1).val = q.val) :
    ((outsAt2 V c t.val t.isLt).1 (ix2 p q) : EReal) = agg2 V c i := by
  rw [out2_last V c t h1 p q, acc2_eq V c p q t.val t.isLt, h1]
  unfold agg2 Cert.Spec.kAgg
  have eq : (⟨(i 1).val, idx2_lt1 i⟩ : Fin 256) = q := Fin.ext hc
  rw [eq, hr, Finset.sum_range (fun e => tile2 V c (t.val / 342 * 2048 + p.val) q e)]
  refine congrArg (fun z => max (z + (V c main_v43 : S1x256.Idx → EReal) (ix2 0 q)) 0) (Finset.sum_congr rfl fun e _ => ?_)
  unfold tile2
  rw [dif_pos e.isLt]

theorem flushed2_eq (c : Dev nD) (t : Fin cfg2.N) (hf : (cfg2.win 3).flush t = true) :
    (dat2 (F := Ideal) V c).flushed 3 t = ((cfg2.win 3).blk t).view.read (Elt Ideal) (agg2 V c) := by
  obtain ⟨-, -, -, -, -, -, -, e0, e1⟩ := idx_facts2 t
  funext j
  show (outsAt2 V c t.val t.isLt).1 j = agg2 V c (((cfg2.win 3).blk t).view.emb j)
  obtain ⟨p, q, rfl⟩ : ∃ (p : Fin 2048) (q : Fin 256), j = ix2 p q := ⟨j 0, j 1, eq_ix2 j⟩
  refine agg2_at V c t ((flush2_3 t).mp hf) p q _ ?_ ?_
  · show win2_3.index t (0 : Fin 2) * 2048 + 1 * p.val = _; rw [e0]; omega
  · show win2_3.index t (1 : Fin 2) * 256 + 1 * q.val = _; rw [e1]; omega

theorem mem_blk2 (t : Fin cfg2.N) (i : S51200x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v44).slice (win2_3.rect t)).set ↔ _
  rw [View.set_slice_whole, Rect.mem_set_unit]
  exact Iff.rfl

theorem cover2 (i : S51200x256.Idx) : ∃ t : Fin cfg2.N, (cfg2.win 3).flush t = true ∧ i ∈ ((cfg2.win 3).blk t).view.set := by
  have hi0 : (i 0).val < 51200 := (i 0).isLt
  have hi1 : (i 1).val < 256 := (i 1).isLt
  have ht : 342 * ((i 0).val / 2048) + 341 < 8550 := by omega
  refine ⟨⟨342 * ((i 0).val / 2048) + 341, by show _ < 8550; exact ht⟩, (flush2_3 _).mpr (by show (342 * ((i 0).val / 2048) + 341) % 342 = 341; omega), ?_⟩
  rw [mem_blk2]
  obtain ⟨-, -, -, -, -, -, -, e0, e1⟩ := idx_facts2 ⟨342 * ((i 0).val / 2048) + 341, by show _ < 8550; exact ht⟩
  intro a
  match a with
  | ⟨0, _⟩ => show win2_3.index _ (0 : Fin 2) * 2048 ≤ (i 0).val ∧ (i 0).val < win2_3.index _ (0 : Fin 2) * 2048 + 2048; rw [e0]; show (342 * ((i 0).val / 2048) + 341) / 342 * 2048 ≤ _ ∧ _ < (342 * ((i 0).val / 2048) + 341) / 342 * 2048 + 2048; omega
  | ⟨1, _⟩ => show win2_3.index _ (1 : Fin 2) * 256 ≤ (i 1).val ∧ (i 1).val < win2_3.index _ (1 : Fin 2) * 256 + 256; rw [e1]; omega

theorem final2 (c : Dev nD) : ((dat2 (F := Ideal) V c).arrAt 3 cfg2.N : S51200x256.Idx → EReal)
    = Cert.Spec.kAgg (V c main_v37 : S1x350208.Idx → BitVec 32) (V c main_v42 : S350208x256.Idx → EReal) (V c main_v43 : S1x256.Idx → EReal) :=
  (dat2 (F := Ideal) V c).arrAt_eq_of_cover 3 (agg2 V c) (flushed2_eq V c) cover2

end Value2

end Cert.KernelIdeal.Hand

end
-- ==== Proof.KI.Val3.lean ====
import proofs.«146792_j51445118271859_1_alg».proof.Proof.KI.Reg3
import proofs.«146792_j51445118271859_1_alg».proof.Proof.Spec
import Idealize.ShloMosaic.Lib.Pipeline.Value
import Idealize.ShloMosaic.Lib.StackMember
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

-- Over the extended reals the payload is the row-by-column product.
theorem pay3_apply (x0 : Vec Ideal S2048x256 .f32) (x1 : Vec Ideal S256x256 .f32) (p : Fin 2048) (q : Fin 256) :
    k3_pay1 x0 x1 (ix2 p q) = ∑ k : Fin 256, x0 (ix2 p k) * x1 (ix2 k q) := by
  unfold k3_pay1
  rw [shapeCast_self, show dot_S2048x256_S256x256_S2048x256_1_0_0_1_n_n = DotDims.plain 2048 256 256 from rfl,
    matmul_zero_eq_dotGeneral, StackMember.dotGeneral_plain_apply]
  rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (t : Fin cfg3.N)

-- Entry x of the left factor's block at t is the array's entry at row 2048 t + x 0, column x 1.
theorem iblk3_0_apply (x : S2048x256.Idx) (i : S51200x256.Idx) (h0 : (i 0).val = t.val * 2048 + (x 0).val)
    (h1 : (i 1).val = (x 1).val) : (iblk3 V c 0 t : Vec Ideal S2048x256 .f32) x = (V c main_v44 : S51200x256.Idx → EReal) i := by
  obtain ⟨e0, e1, -⟩ := idx_facts3 t
  unfold iblk3
  rw [View.read_apply]
  exact congrArg (V c main_v44) (Shape.idx_ext₂ (by show win3_0.index t (0 : Fin 2) * 2048 + 1 * (x 0).val = _; omega)
    (by show win3_0.index t (1 : Fin 2) * 256 + 1 * (x 1).val = _; omega))

-- The right factor's block at t is the whole array.
theorem iblk3_1_apply (x : S256x256.Idx) : (iblk3 V c 1 t : Vec Ideal S256x256 .f32) x = (V c main_arg4 : S256x256.Idx → EReal) x := by
  obtain ⟨-, -, e0, e1, -⟩ := idx_facts3 t
  unfold iblk3
  rw [View.read_apply]
  exact congrArg (V c main_arg4) (Shape.idx_ext₂ (by show win3_1.index t (0 : Fin 2) * 256 + 1 * (x 0).val = _; omega)
    (by show win3_1.index t (1 : Fin 2) * 256 + 1 * (x 1).val = _; omega))

-- At point t the output block is block t of the product of the two arrays.
theorem flushed3_eq : (dat3 (F := Ideal) V c).flushed 2 t = ((cfg3.win 2).blk t).view.read (Elt Ideal)
    (Cert.Spec.lin (V c main_v44 : S51200x256.Idx → EReal) (V c main_arg4 : S256x256.Idx → EReal)) := by
  obtain ⟨-, -, -, -, e0, e1⟩ := idx_facts3 t
  funext j
  obtain ⟨p, q, rfl⟩ : ∃ (p : Fin 2048) (q : Fin 256), j = ix2 p q := ⟨j 0, j 1, eq_ix2 j⟩
  have eq : (⟨_, idx2_lt1 (((cfg3.win 2).blk t).view.emb (ix2 p q))⟩ : Fin 256) = q :=
    Fin.ext (by show win3_2.index t (1 : Fin 2) * 256 + 1 * q.val = q.val; omega)
  show k3_pay1 (iblk3 V c 0 t) (iblk3 V c 1 t) (ix2 p q) = Cert.Spec.lin _ _ (((cfg3.win 2).blk t).view.emb (ix2 p q))
  unfold Cert.Spec.lin
  rw [pay3_apply, eq]
  refine Finset.sum_congr rfl fun k _ => ?_
  rw [iblk3_0_apply V c t (ix2 p k) (ix2 ⟨_, idx2_lt0 (((cfg3.win 2).blk t).view.emb (ix2 p q))⟩ k)
    (by show win3_2.index t (0 : Fin 2) * 2048 + 1 * p.val = t.val * 2048 + p.val; omega) rfl, iblk3_1_apply]

-- Every index of the product array lies in the block of the point its row falls under.
theorem cover3 (i : S51200x256.Idx) : ∃ t : Fin cfg3.N, (cfg3.win 2).flush t = true ∧ i ∈ ((cfg3.win 2).blk t).view.set := by
  have hi0 : (i 0).val < 51200 := (i 0).isLt
  have hi1 : (i 1).val < 256 := (i 1).isLt
  have ht : (i 0).val / 2048 < 25 := by omega
  obtain ⟨-, -, -, -, e0, e1⟩ := idx_facts3 ⟨_, ht⟩
  refine ⟨⟨_, ht⟩, flush3_2 _, ?_⟩
  show i ∈ ((View.whole main_v45).slice (win3_2.rect ⟨_, ht⟩)).set
  rw [View.set_slice_whole, Rect.mem_set_unit]
  intro a
  match a with
  | ⟨0, _⟩ => show win3_2.index _ (0 : Fin 2) * 2048 ≤ (i 0).val ∧ (i 0).val < win3_2.index _ (0 : Fin 2) * 2048 + 2048; rw [e0]; show (i 0).val / 2048 * 2048 ≤ _ ∧ _ < (i 0).val / 2048 * 2048 + 2048; omega
  | ⟨1, _⟩ => show win3_2.index _ (1 : Fin 2) * 256 ≤ (i 1).val ∧ (i 1).val < win3_2.index _ (1 : Fin 2) * 256 + 256; rw [e1]; omega

theorem final3 : ((dat3 (F := Ideal) V c).arrAt 2 cfg3.N : S51200x256.Idx → EReal)
    = Cert.Spec.lin (V c main_v44 : S51200x256.Idx → EReal) (V c main_arg4 : S256x256.Idx → EReal) :=
  (dat3 (F := Ideal) V c).arrAt_eq_of_cover 2 _ (fun t _ => flushed3_eq V c t) cover3

end Cert.KernelIdeal.Hand

end
-- ==== Proof.KI.Val4.lean ====
import proofs.«146792_j51445118271859_1_alg».proof.Proof.KI.Reg4
import proofs.«146792_j51445118271859_1_alg».proof.Proof.KI.Val1
import proofs.«146792_j51445118271859_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

section Value4

variable (V : (c : Dev nD) → (b : Ref sig .tc) → Buf (Elt Ideal) ((c : Thread nD τ).loc b))

theorem lt_N4 (t : Fin cfg4.N) : t.val < 8550 := lt_of_lt_of_eq t.isLt (show cfg4.N = 8550 from N_4)

theorem coordE4 (t : Fin cfg4.N) : (grid4.coords t 0).val = t.val / 25 := by
  show t.val / grid4.stride 0 % 342 = t.val / 25
  rw [show grid4.stride 0 = 25 from by decide]
  have := lt_N4 t
  omega

theorem word_val4 (x : ℕ) (h : x < 8550) : (BitVec.ofNat 32 x).toNat = x := by
  rw [BitVec.toNat_ofNat]
  exact Nat.mod_eq_of_lt (by omega)

theorem idx4_0_0 (t : Fin cfg4.N) : win4_0.index t (0 : Fin 2) = t.val / 25 := by
  show (BitVec.ofNat 32 (grid4.coords t 0).val).toNat = _
  rw [coordE4, word_val4 _ (by have := lt_N4 t; omega)]
theorem idx4_0_1 (t : Fin cfg4.N) : win4_0.index t (1 : Fin 2) = 0 := rfl
theorem idx4_1_0 (t : Fin cfg4.N) : win4_1.index t (0 : Fin 2) = t.val / 25 := by
  show (BitVec.ofNat 32 (grid4.coords t 0).val).toNat = _
  rw [coordE4, word_val4 _ (by have := lt_N4 t; omega)]
theorem idx4_1_1 (t : Fin cfg4.N) : win4_1.index t (1 : Fin 2) = 0 := rfl
theorem idx4_2_0 (t : Fin cfg4.N) : win4_2.index t (0 : Fin 2) = t.val % 25 := by
  show (BitVec.ofNat 32 (grid4.coords t 1).val).toNat = _
  rw [coord4_1, word_val4 _ (by omega)]
theorem idx4_2_1 (t : Fin cfg4.N) : win4_2.index t (1 : Fin 2) = 0 := rfl
theorem idx4_3_0 (t : Fin cfg4.N) : win4_3.index t (0 : Fin 2) = t.val / 25 := by
  show (BitVec.ofNat 32 (grid4.coords t 0).val).toNat = _
  rw [coordE4, word_val4 _ (by have := lt_N4 t; omega)]
theorem idx4_3_1 (t : Fin cfg4.N) : win4_3.index t (1 : Fin 2) = 0 := rfl

def eblk4 (t : Fin cfg4.N) : Fin 342 := ⟨t.val / 25, by have := lt_N4 t; omega⟩
def ntile4 (t : Fin cfg4.N) : Fin 25 := ⟨t.val % 25, Nat.mod_lt _ (by decide)⟩

theorem iblk4_0_apply (c : Dev nD) (t : Fin cfg4.N) (x : S1024x1.Idx) (i : S350208x1.Idx)
    (h0 : (i 0).val = t.val / 25 * 1024 + (x 0).val) (h1 : (i 1).val = (x 1).val) :
    (iblk4 V c 0 t : Vec Ideal S1024x1 .i32) x = (V c main_v36 : S350208x1.Idx → BitVec 32) i := by
  have e0 := idx4_0_0 t
  have e1 := idx4_0_1 t
  unfold iblk4
  rw [View.read_apply]
  show V c main_v36 _ = V c main_v36 _
  congr 1
  funext a
  apply Fin.ext
  match a with
  | ⟨0, _⟩ => show win4_0.index t (0 : Fin 2) * 1024 + 1 * (x 0).val = (i 0).val; rw [e0, h0]; omega
  | ⟨1, _⟩ => show win4_0.index t (1 : Fin 2) * 1 + 1 * (x 1).val = (i 1).val; rw [e1, h1]; omega

theorem iblk4_1_apply (c : Dev nD) (t : Fin cfg4.N) (x : S1024x1.Idx) (i : S350208x1.Idx)
    (h0 : (i 0).val = t.val / 25 * 1024 + (x 0).val) (h1 : (i 1).val = (x 1).val) :
    (iblk4 V c 1 t : Vec Ideal S1024x1 .f32) x = (V c main_v38 : S350208x1.Idx → EReal) i := by
  have e0 := idx4_1_0 t
  have e1 := idx4_1_1 t
  unfold iblk4
  rw [View.read_apply]
  show V c main_v38 _ = V c main_v38 _
  congr 1
  funext a
  apply Fin.ext
  match a with
  | ⟨0, _⟩ => show win4_1.index t (0 : Fin 2) * 1024 + 1 * (x 0).val = (i 0).val; rw [e0, h0]; omega
  | ⟨1, _⟩ => show win4_1.index t (1 : Fin 2) * 1 + 1 * (x 1).val = (i 1).val; rw [e1, h1]; omega

theorem iblk4_2_apply (c : Dev nD) (t : Fin cfg4.N) (x : S2048x256.Idx) (i : S51200x256.Idx)
    (h0 : (i 0).val = t.val % 25 * 2048 + (x 0).val) (h1 : (i 1).val = (x 1).val) :
    (iblk4 V c 2 t : Vec Ideal S2048x256 .f32) x = (V c main_v45 : S51200x256.Idx → EReal) i := by
  have e0 := idx4_2_0 t
  have e1 := idx4_2_1 t
  unfold iblk4
  rw [View.read_apply]
  show V c main_v45 _ = V c main_v45 _
  congr 1
  funext a
  apply Fin.ext
  match a with
  | ⟨0, _⟩ => show win4_2.index t (0 : Fin 2) * 2048 + 1 * (x 0).val = (i 0).val; rw [e0, h0]; omega
  | ⟨1, _⟩ => show win4_2.index t (1 : Fin 2) * 256 + 1 * (x 1).val = (i 1).val; rw [e1, h1]; omega

def tileTerm4 (c : Dev nD) (e : Fin 350208) (f : Fin 256) (s : Fin 25) : EReal :=
  (∑ j : Fin 2048, Cert.Spec.ind ((V c main_v36 : S350208x1.Idx → BitVec 32) (ix2 e 0) = BitVec.ofNat 32 (Cert.Spec.nodeAt s j).val)
      * (V c main_v45 : S51200x256.Idx → EReal) (ix2 (Cert.Spec.nodeAt s j) f))
    * (V c main_v38 : S350208x1.Idx → EReal) (ix2 e 0)

theorem kMsg4_eq (c : Dev nD) (e : Fin 350208) (f : Fin 256) :
    Cert.Spec.kMsg (V c main_v36 : S350208x1.Idx → BitVec 32) (V c main_v38 : S350208x1.Idx → EReal) (V c main_v45 : S51200x256.Idx → EReal) (ix2 e f) = ∑ s : Fin 25, tileTerm4 V c e f s := rfl

theorem step4 (c : Dev nD) (t : Fin cfg4.N) (acc : Vec Ideal S1024x256 .f32) (p : Fin 1024) (q : Fin 256) :
    k1_pay2 (grid4.coords t) (iblk4 V c 0 t) (iblk4 V c 2 t) acc (iblk4 V c 1 t) (ix2 p q)
      = acc (ix2 p q) + tileTerm4 V c (Cert.Spec.edgeAt (eblk4 t) p) q (ntile4 t) := by
  rw [k1_pay2_apply, iblk4_0_apply V c t (ix2 p 0) (ix2 (Cert.Spec.edgeAt (eblk4 t) p) 0) rfl rfl,
    iblk4_1_apply V c t (ix2 p 0) (ix2 (Cert.Spec.edgeAt (eblk4 t) p) 0) rfl rfl, coord4_1 t]
  unfold tileTerm4
  refine congrArg (fun S => acc (ix2 p q) + S * _) (Finset.sum_congr rfl fun j _ => ?_)
  rw [iblk4_2_apply V c t (ix2 j q) (ix2 (Cert.Spec.nodeAt (ntile4 t) j) q) rfl rfl]
  rfl

def part4 (c : Dev nD) (e : Fin 350208) (f : Fin 256) (k : ℕ) : EReal :=
  ∑ s ∈ Finset.univ.filter (fun s : Fin 25 => s.val < k), tileTerm4 V c e f s

theorem part4_zero (c : Dev nD) (e : Fin 350208) (f : Fin 256) : part4 V c e f 0 = 0 := by
  unfold part4
  rw [Finset.filter_false_of_mem (fun s _ => Nat.not_lt_zero _), Finset.sum_empty]

theorem part4_succ (c : Dev nD) (e : Fin 350208) (f : Fin 256) (k : ℕ) (hk : k < 25) :
    part4 V c e f (k + 1) = part4 V c e f k + tileTerm4 V c e f ⟨k, hk⟩ := by
  unfold part4
  have hs : Finset.univ.filter (fun s : Fin 25 => s.val < k + 1)
      = insert (⟨k, hk⟩ : Fin 25) (Finset.univ.filter (fun s : Fin 25 => s.val < k)) := by
    ext s
    simp only [Finset.mem_filter, Finset.mem_univ, true_and, Finset.mem_insert, Fin.ext_iff]
    omega
  rw [hs, Finset.sum_insert (by simp), add_comm]

theorem part4_all (c : Dev nD) (e : Fin 350208) (f : Fin 256) :
    part4 V c e f 25 = Cert.Spec.kMsg (V c main_v36 : S350208x1.Idx → BitVec 32) (V c main_v38 : S350208x1.Idx → EReal) (V c main_v45 : S51200x256.Idx → EReal) (ix2 e f) := by
  rw [kMsg4_eq]
  unfold part4
  rw [Finset.filter_true_of_mem (fun s _ => s.isLt)]

theorem acc4_eq (c : Dev nD) : ∀ (n : ℕ) (hn : n < cfg4.N) (p : Fin 1024) (q : Fin 256),
    (outsAt4 V c n hn).2 (ix2 p q) = part4 V c (Cert.Spec.edgeAt (eblk4 ⟨n, hn⟩) p) q (n % 25 + 1)
  | 0, hn, p, q => by
    rw [outsAt4_A V c ⟨0, hn⟩ (Nat.zero_mod 25)]
    unfold outs4 runA4
    dsimp only
    erw [accA1_eq]
    rw [step4, k1_pay1_apply, zero_add, part4_succ V c _ q 0 (by decide), part4_zero, zero_add]
    rfl
  | n + 1, hn, p, q => by
    have hlt : (n + 1) % 25 < 25 := Nat.mod_lt _ (by decide)
    by_cases h0 : (n + 1) % 25 = 0
    · rw [outsAt4_A V c ⟨n + 1, hn⟩ h0]
      unfold outs4 runA4
      dsimp only
      erw [accA1_eq]
      rw [step4, k1_pay1_apply, zero_add, h0, part4_succ V c _ q 0 (by decide), part4_zero, zero_add]
      exact congrArg (tileTerm4 V c _ q) (Fin.ext h0)
    · have ih := acc4_eq c n (Nat.lt_of_succ_lt hn) p q
      have hE : eblk4 ⟨n, Nat.lt_of_succ_lt hn⟩ = eblk4 ⟨n + 1, hn⟩ := Fin.ext (by show n / 25 = (n + 1) / 25; omega)
      have hk : n % 25 + 1 = (n + 1) % 25 := by omega
      rw [hE, hk] at ih
      by_cases h1 : (n + 1) % 25 = 24
      · rw [outsAt4_C V c ⟨n + 1, hn⟩ h1]
        unfold outs4 runC4
        dsimp only
        erw [accC1_eq]
        rw [step4]
        unfold prev4
        show (outsAt4 V c n _).2 (ix2 p q) + _ = _
        rw [ih, part4_succ V c _ q ((n + 1) % 25) hlt]
        rfl
      · rw [outsAt4_B V c ⟨n + 1, hn⟩ h0 h1]
        unfold outs4 runB4
        dsimp only
        erw [accB1_eq]
        rw [step4]
        unfold prev4
        show (outsAt4 V c n _).2 (ix2 p q) + _ = _
        rw [ih, part4_succ V c _ q ((n + 1) % 25) hlt]
        rfl

theorem out4_at (c : Dev nD) (t : Fin cfg4.N) (h24 : t.val % 25 = 24) (p : Fin 1024) (q : Fin 256) (i : S350208x256.Idx)
    (hr : (i 0).val = t.val / 25 * 1024 + p.val) (hc : (i 1).val = q.val) :
    (outsAt4 V c t.val t.isLt).1 (ix2 p q) = Cert.Spec.kMsg (V c main_v36 : S350208x1.Idx → BitVec 32) (V c main_v38 : S350208x1.Idx → EReal) (V c main_v45 : S51200x256.Idx → EReal) i := by
  have hacc := acc4_eq V c t.val t.isLt p q
  have hi : i = ix2 (Cert.Spec.edgeAt (eblk4 t) p) q := by
    funext a
    apply Fin.ext
    match a with
    | ⟨0, _⟩ => exact hr
    | ⟨1, _⟩ => exact hc
  rw [outsAt4_C V c t h24] at hacc ⊢
  unfold outs4 runC4 at hacc ⊢
  dsimp only at hacc ⊢
  erw [accC1_eq] at hacc
  erw [outC1_eq]
  rw [k1_pay3_apply, hacc, h24, part4_all, hi]

theorem flushed4_eq (c : Dev nD) (t : Fin cfg4.N) (hf : (cfg4.win 3).flush t = true) :
    (dat4 (F := Ideal) V c).flushed 3 t = ((cfg4.win 3).blk t).view.read (Elt Ideal) (Cert.Spec.kMsg (V c main_v36 : S350208x1.Idx → BitVec 32) (V c main_v38 : S350208x1.Idx → EReal) (V c main_v45 : S51200x256.Idx → EReal)) := by
  have h24 : t.val % 25 = 24 := (flush4_3 t).mp hf
  show (cfg4.win 3).cut (grid4.coords t) ((dat4 V c).after 3 t) = _
  rw [after4_3]
  have e0 := idx4_3_0 t
  have e1 := idx4_3_1 t
  funext j
  show (outsAt4 V c t.val t.isLt).1 j = Cert.Spec.kMsg (V c main_v36 : S350208x1.Idx → BitVec 32) (V c main_v38 : S350208x1.Idx → EReal) (V c main_v45 : S51200x256.Idx → EReal) (((cfg4.win 3).blk t).view.emb j)
  obtain ⟨p, q, rfl⟩ : ∃ (p : Fin 1024) (q : Fin 256), j = ix2 p q := ⟨j 0, j 1, eq_ix2 j⟩
  refine out4_at V c t h24 p q _ ?_ ?_
  · show win4_3.index t (0 : Fin 2) * 1024 + 1 * p.val = _; rw [e0]; omega
  · show win4_3.index t (1 : Fin 2) * 256 + 1 * q.val = _; rw [e1]; omega

theorem mem_blk4 (t : Fin cfg4.N) (i : S350208x256.Idx) :
    i ∈ ((cfg4.win 3).blk t).view.set ↔ ∀ a : Fin 2, win4_3.index t a * S1024x256.size a ≤ (i a).val ∧ (i a).val < win4_3.index t a * S1024x256.size a + S1024x256.size a := by
  show i ∈ ((View.whole main_v46).slice (win4_3.rect t)).set ↔ _
  rw [View.set_slice_whole, Rect.mem_set_unit]
  exact Iff.rfl

theorem cover4 (i : S350208x256.Idx) : ∃ t : Fin cfg4.N, (cfg4.win 3).flush t = true ∧ i ∈ ((cfg4.win 3).blk t).view.set := by
  have hi0 : (i 0).val < 350208 := (i 0).isLt
  have hi1 : (i 1).val < 256 := (i 1).isLt
  have hlt : 25 * ((i 0).val / 1024) + 24 < cfg4.N := lt_of_lt_of_eq (by omega : 25 * ((i 0).val / 1024) + 24 < 8550) (N_4).symm
  have e0 := idx4_3_0 ⟨25 * ((i 0).val / 1024) + 24, hlt⟩
  have e1 := idx4_3_1 ⟨25 * ((i 0).val / 1024) + 24, hlt⟩
  refine ⟨⟨25 * ((i 0).val / 1024) + 24, hlt⟩, (flush4_3 _).mpr (by show (25 * ((i 0).val / 1024) + 24) % 25 = 24; omega), ?_⟩
  rw [mem_blk4]
  intro a
  match a with
  | ⟨0, _⟩ =>
    show win4_3.index _ (0 : Fin 2) * 1024 ≤ (i 0).val ∧ (i 0).val < win4_3.index _ (0 : Fin 2) * 1024 + 1024
    rw [e0]
    show (25 * ((i 0).val / 1024) + 24) / 25 * 1024 ≤ _ ∧ _ < (25 * ((i 0).val / 1024) + 24) / 25 * 1024 + 1024
    omega
  | ⟨1, _⟩ =>
    show win4_3.index _ (1 : Fin 2) * 256 ≤ (i 1).val ∧ (i 1).val < win4_3.index _ (1 : Fin 2) * 256 + 256
    rw [e1]
    omega

theorem final4 (c : Dev nD) : ((dat4 (F := Ideal) V c).arrAt 3 cfg4.N : S350208x256.Idx → EReal) = Cert.Spec.kMsg (V c main_v36 : S350208x1.Idx → BitVec 32) (V c main_v38 : S350208x1.Idx → EReal) (V c main_v45 : S51200x256.Idx → EReal) :=
  (dat4 (F := Ideal) V c).arrAt_eq_of_cover 3 (Cert.Spec.kMsg (V c main_v36 : S350208x1.Idx → BitVec 32) (V c main_v38 : S350208x1.Idx → EReal) (V c main_v45 : S51200x256.Idx → EReal))
    (fun t hf => flushed4_eq V c t hf) cover4

end Value4

end Cert.KernelIdeal.Hand

end
-- ==== Proof.KI.Val5.lean ====
import proofs.«146792_j51445118271859_1_alg».proof.Proof.KI.Reg5
import proofs.«146792_j51445118271859_1_alg».proof.Proof.KI.Val2
import proofs.«146792_j51445118271859_1_alg».proof.Proof.Spec
import Idealize.ShloMosaic.Lib.Pipeline.Value
import Idealize.ShloMosaic.Lib.StackMember
import Idealize.ShloMosaic.Lib.ValueIdx
import Idealize.ShloMosaic.Lib.ValueLayout
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators

section Value5

variable (V : (c : Dev nD) → (b : Ref sig .tc) → Buf (Elt Ideal) ((c : Thread nD τ).loc b))

theorem idx_facts5 : ∀ t : Fin cfg5.N, (grid5.coords t 0).val = t.val / 342
    ∧ win5_0.index t (0 : Fin 2) = 0 ∧ win5_0.index t (1 : Fin 2) = t.val % 342
    ∧ win5_1.index t (0 : Fin 2) = t.val % 342 ∧ win5_1.index t (1 : Fin 2) = 0
    ∧ win5_2.index t (0 : Fin 2) = 0 ∧ win5_2.index t (1 : Fin 2) = 0
    ∧ win5_3.index t (0 : Fin 2) = t.val / 342 ∧ win5_3.index t (1 : Fin 2) = 0 :=
  (by decide +kernel : ∀ t : Fin grid5.N, _)

theorem iblk5_0_apply (c : Dev nD) (t : Fin cfg5.N) (x : S1x1024.Idx) (i : S1x350208.Idx)
    (h0 : (i 0).val = (x 0).val) (h1 : (i 1).val = t.val % 342 * 1024 + (x 1).val) :
    (iblk5 V c 0 t : Vec Ideal S1x1024 .i32) x = (V c main_v37 : S1x350208.Idx → BitVec 32) i := by
  obtain ⟨-, e0, e1, -⟩ := idx_facts5 t
  unfold iblk5
  rw [View.read_apply]
  show V c main_v37 _ = V c main_v37 _
  congr 1
  funext a
  apply Fin.ext
  match a with
  | ⟨0, _⟩ => show win5_0.index t (0 : Fin 2) * 1 + 1 * (x 0).val = (i 0).val; rw [e0, h0]; omega
  | ⟨1, _⟩ => show win5_0.index t (1 : Fin 2) * 1024 + 1 * (x 1).val = (i 1).val; rw [e1, h1]; omega

theorem iblk5_1_apply (c : Dev nD) (t : Fin cfg5.N) (x : S1024x256.Idx) (i : S350208x256.Idx)
    (h0 : (i 0).val = t.val % 342 * 1024 + (x 0).val) (h1 : (i 1).val = (x 1).val) :
    (iblk5 V c 1 t : Vec Ideal S1024x256 .bf16) x = (V c main_v46 : S350208x256.Idx → EReal) i := by
  obtain ⟨-, -, -, e0, e1, -⟩ := idx_facts5 t
  unfold iblk5
  rw [View.read_apply]
  show V c main_v46 _ = V c main_v46 _
  congr 1
  funext a
  apply Fin.ext
  match a with
  | ⟨0, _⟩ => show win5_1.index t (0 : Fin 2) * 1024 + 1 * (x 0).val = (i 0).val; rw [e0, h0]; omega
  | ⟨1, _⟩ => show win5_1.index t (1 : Fin 2) * 256 + 1 * (x 1).val = (i 1).val; rw [e1, h1]; omega

theorem iblk5_2_apply (c : Dev nD) (t : Fin cfg5.N) (x : S1x256.Idx) :
    (iblk5 V c 2 t : Vec Ideal S1x256 .f32) x = (V c main_v47 : S1x256.Idx → EReal) x := by
  obtain ⟨-, -, -, -, -, e0, e1, -⟩ := idx_facts5 t
  unfold iblk5
  rw [View.read_apply]
  show V c main_v47 _ = V c main_v47 _
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 256 + 1 * (x 1).val = (x 1).val; rw [e1]; omega

-- The contribution of edge tile e to the node of id r, at feature q.
def tile5 (c : Dev nD) (r : ℕ) (q : Fin 256) (e : ℕ) : EReal :=
  if h : e < 342 then ∑ j : Fin 1024,
    Cert.Spec.ind ((V c main_v37 : S1x350208.Idx → BitVec 32) (ix2 0 (Cert.Spec.edgeAt ⟨e, h⟩ j)) = BitVec.ofNat 32 r)
      * (V c main_v46 : S350208x256.Idx → EReal) (ix2 (Cert.Spec.edgeAt ⟨e, h⟩ j) q)
  else 0

theorem step5 (c : Dev nD) (t : Fin cfg5.N) (acc : Vec Ideal S2048x256 .f32) (p : Fin 2048) (q : Fin 256) :
    (k2_pay2 (grid5.coords t) (iblk5 V c 0 t) (iblk5 V c 1 t) acc (ix2 p q) : EReal)
      = acc (ix2 p q) + tile5 V c (t.val / 342 * 2048 + p.val) q (t.val % 342) := by
  have hm : t.val % 342 < 342 := Nat.mod_lt _ (by norm_num)
  obtain ⟨eg, -⟩ := idx_facts5 t
  rw [k2_pay2_apply, eg]
  unfold tile5
  rw [dif_pos hm]
  refine congrArg (acc (ix2 p q) + ·) (Finset.sum_congr rfl fun j _ => ?_)
  rw [iblk5_0_apply V c t (ix2 0 j) (ix2 0 (Cert.Spec.edgeAt ⟨t.val % 342, hm⟩ j)) rfl rfl,
    iblk5_1_apply V c t (ix2 j q) (ix2 (Cert.Spec.edgeAt ⟨t.val % 342, hm⟩ j) q) rfl rfl]

theorem acc5_first (c : Dev nD) (t : Fin cfg5.N) (h0 : t.val % 342 = 0) (p : Fin 2048) (q : Fin 256) :
    ((outsAt5 V c t.val t.isLt).2 (ix2 p q) : EReal) = tile5 V c (t.val / 342 * 2048 + p.val) q 0 := by
  rw [outsAt5_A V c t h0]
  unfold ends5 runA5
  dsimp only
  refine (congrFun (runs2_eq.1 _ _) _).trans ?_
  rw [step5, k2_pay1_apply, zero_add, h0]

theorem acc5_next (c : Dev nD) (t : Fin cfg5.N) (h0 : ¬t.val % 342 = 0) (p : Fin 2048) (q : Fin 256) :
    ((outsAt5 V c t.val t.isLt).2 (ix2 p q) : EReal)
      = (outsAt5 V c (t.val - 1) (by omega)).2 (ix2 p q) + tile5 V c (t.val / 342 * 2048 + p.val) q (t.val % 342) := by
  by_cases h1 : t.val % 342 = 341
  · rw [outsAt5_C V c t h1]
    unfold ends5 runC5
    dsimp only
    exact (congrFun (runs2_eq.2.2.1 _ _ _) _).trans (step5 V c t _ p q)
  · rw [outsAt5_B V c t h0 h1]
    unfold ends5 runB5
    dsimp only
    exact (congrFun (runs2_eq.2.1 _ _ _) _).trans (step5 V c t _ p q)

-- By induction on the point: after point k the sum holds the contributions of edge tiles 0 to k mod 342.
theorem acc5_eq (c : Dev nD) (p : Fin 2048) (q : Fin 256) : ∀ (k : ℕ) (hk : k < cfg5.N),
    ((outsAt5 V c k hk).2 (ix2 p q) : EReal) = ∑ e ∈ Finset.range (k % 342 + 1), tile5 V c (k / 342 * 2048 + p.val) q e
  | 0, hk => by
    rw [acc5_first V c ⟨0, hk⟩ (Nat.zero_mod _) p q]
    show tile5 V c (0 / 342 * 2048 + p.val) q 0 = _
    rw [Nat.zero_mod, Finset.sum_range_one]
  | k + 1, hk => by
    by_cases h0 : (k + 1) % 342 = 0
    · rw [acc5_first V c ⟨k + 1, hk⟩ h0 p q]
      show tile5 V c ((k + 1) / 342 * 2048 + p.val) q 0 = _
      rw [h0, Finset.sum_range_one]
    · rw [acc5_next V c ⟨k + 1, hk⟩ h0 p q]
      show (outsAt5 V c k _).2 (ix2 p q) + tile5 V c ((k + 1) / 342 * 2048 + p.val) q ((k + 1) % 342) = _
      have hd : (k + 1) / 342 = k / 342 := by omega
      have hm : (k + 1) % 342 = k % 342 + 1 := by omega
      rw [acc5_eq c p q k (Nat.lt_of_succ_lt hk), hd, hm]
      exact (Finset.sum_range_succ _ _).symm

theorem out5_last (c : Dev nD) (t : Fin cfg5.N) (h1 : t.val % 342 = 341) (p : Fin 2048) (q : Fin 256) :
    ((outsAt5 V c t.val t.isLt).1 (ix2 p q) : EReal)
      = max ((outsAt5 V c t.val t.isLt).2 (ix2 p q) + (V c main_v47 : S1x256.Idx → EReal) (ix2 0 q)) 0 := by
  rw [outsAt5_C V c t h1]
  unfold ends5 runC5
  dsimp only
  refine (congrFun (runs2_eq.2.2.2 _ _ _) _).trans (.trans ?_ (congrArg (fun z => max (z + _) 0) (congrFun (runs2_eq.2.2.1 _ _ _) _).symm))
  rw [k2_pay3_apply, iblk5_2_apply]

-- The aggregation of the arrays the region finds.
def agg5 (c : Dev nD) : S51200x256.Idx → EReal :=
  Cert.Spec.kAgg (V c main_v37 : S1x350208.Idx → BitVec 32) (V c main_v46 : S350208x256.Idx → EReal) (V c main_v47 : S1x256.Idx → EReal)

theorem agg5_at (c : Dev nD) (t : Fin cfg5.N) (h1 : t.val % 342 = 341) (p : Fin 2048) (q : Fin 256) (i : S51200x256.Idx)
    (hr : (i 0).val = t.val / 342 * 2048 + p.val) (hc : (i 1).val = q.val) :
    ((outsAt5 V c t.val t.isLt).1 (ix2 p q) : EReal) = agg5 V c i := by
  rw [out5_last V c t h1 p q, acc5_eq V c p q t.val t.isLt, h1]
  unfold agg5 Cert.Spec.kAgg
  have eq : (⟨(i 1).val, idx2_lt1 i⟩ : Fin 256) = q := Fin.ext hc
  rw [eq, hr, Finset.sum_range (fun e => tile5 V c (t.val / 342 * 2048 + p.val) q e)]
  refine congrArg (fun z => max (z + (V c main_v47 : S1x256.Idx → EReal) (ix2 0 q)) 0) (Finset.sum_congr rfl fun e _ => ?_)
  unfold tile5
  rw [dif_pos e.isLt]

theorem flushed5_eq (c : Dev nD) (t : Fin cfg5.N) (hf : (cfg5.win 3).flush t = true) :
    (dat5 (F := Ideal) V c).flushed 3 t = ((cfg5.win 3).blk t).view.read (Elt Ideal) (agg5 V c) := by
  obtain ⟨-, -, -, -, -, -, -, e0, e1⟩ := idx_facts5 t
  funext j
  show (outsAt5 V c t.val t.isLt).1 j = agg5 V c (((cfg5.win 3).blk t).view.emb j)
  obtain ⟨p, q, rfl⟩ : ∃ (p : Fin 2048) (q : Fin 256), j = ix2 p q := ⟨j 0, j 1, eq_ix2 j⟩
  refine agg5_at V c t ((flush5_3 t).mp hf) p q _ ?_ ?_
  · show win5_3.index t (0 : Fin 2) * 2048 + 1 * p.val = _; rw [e0]; omega
  · show win5_3.index t (1 : Fin 2) * 256 + 1 * q.val = _; rw [e1]; omega

theorem mem_blk5 (t : Fin cfg5.N) (i : S51200x256.Idx) :
    i ∈ ((cfg5.win 3).blk t).view.set ↔ ∀ a : Fin 2, win5_3.index t a * S2048x256.size a ≤ (i a).val ∧ (i a).val < win5_3.index t a * S2048x256.size a + S2048x256.size a := by
  show i ∈ ((View.whole main_v48).slice (win5_3.rect t)).set ↔ _
  rw [View.set_slice_whole, Rect.mem_set_unit]
  exact Iff.rfl

theorem cover5 (i : S51200x256.Idx) : ∃ t : Fin cfg5.N, (cfg5.win 3).flush t = true ∧ i ∈ ((cfg5.win 3).blk t).view.set := by
  have hi0 : (i 0).val < 51200 := (i 0).isLt
  have hi1 : (i 1).val < 256 := (i 1).isLt
  have ht : 342 * ((i 0).val / 2048) + 341 < 8550 := by omega
  refine ⟨⟨342 * ((i 0).val / 2048) + 341, by show _ < 8550; exact ht⟩, (flush5_3 _).mpr (by show (342 * ((i 0).val / 2048) + 341) % 342 = 341; omega), ?_⟩
  rw [mem_blk5]
  obtain ⟨-, -, -, -, -, -, -, e0, e1⟩ := idx_facts5 ⟨342 * ((i 0).val / 2048) + 341, by show _ < 8550; exact ht⟩
  intro a
  match a with
  | ⟨0, _⟩ => show win5_3.index _ (0 : Fin 2) * 2048 ≤ (i 0).val ∧ (i 0).val < win5_3.index _ (0 : Fin 2) * 2048 + 2048; rw [e0]; show (342 * ((i 0).val / 2048) + 341) / 342 * 2048 ≤ _ ∧ _ < (342 * ((i 0).val / 2048) + 341) / 342 * 2048 + 2048; omega
  | ⟨1, _⟩ => show win5_3.index _ (1 : Fin 2) * 256 ≤ (i 1).val ∧ (i 1).val < win5_3.index _ (1 : Fin 2) * 256 + 256; rw [e1]; omega

theorem final5 (c : Dev nD) : ((dat5 (F := Ideal) V c).arrAt 3 cfg5.N : S51200x256.Idx → EReal)
    = Cert.Spec.kAgg (V c main_v37 : S1x350208.Idx → BitVec 32) (V c main_v46 : S350208x256.Idx → EReal) (V c main_v47 : S1x256.Idx → EReal) :=
  (dat5 (F := Ideal) V c).arrAt_eq_of_cover 3 (agg5 V c) (flushed5_eq V c) cover5

end Value5

end Cert.KernelIdeal.Hand

end
-- ==== Proof.KI.Val6.lean ====
import proofs.«146792_j51445118271859_1_alg».proof.Proof.KI.Reg6
import proofs.«146792_j51445118271859_1_alg».proof.Proof.Spec
import Idealize.ShloMosaic.Lib.Pipeline.Value
import Idealize.ShloMosaic.Lib.StackMember
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

-- Over the extended reals the payload is the row-by-column product plus the bias row's entry of the column.
theorem pay6_apply (x0 : Vec Ideal S2048x256 .f32) (x1 : Vec Ideal S256x32 .f32) (x2 : Vec Ideal S1x32 .f32) (p : Fin 2048)
    (q : Fin 32) : k6_pay1 x0 x1 x2 (ix2 p q) = (∑ k : Fin 256, x0 (ix2 p k) * x1 (ix2 k q)) + x2 (ix2 0 q) := by
  unfold k6_pay1
  rw [addf_apply, shapeCast_self, shapeCast_self,
    broadcastTo_apply x2 broadcasts_S1x32_S2048x32 (ix2 p q) (ix2 0 q) fun a => by match a with | ⟨0, _⟩ => rfl | ⟨1, _⟩ => rfl,
    show dot_S2048x256_S256x32_S2048x32_1_0_0_1_n_n = DotDims.plain 2048 256 32 from rfl, matmul_zero_eq_dotGeneral,
    StackMember.dotGeneral_plain_apply]
  rfl

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (t : Fin cfg6.N)

-- Entry x of the left factor's block at t is the array's entry at row 2048 t + x 0, column x 1.
theorem iblk6_0_apply (x : S2048x256.Idx) (i : S51200x256.Idx) (h0 : (i 0).val = t.val * 2048 + (x 0).val)
    (h1 : (i 1).val = (x 1).val) : (iblk6 V c 0 t : Vec Ideal S2048x256 .f32) x = (V c main_v48 : S51200x256.Idx → EReal) i := by
  obtain ⟨e0, e1, -⟩ := idx_facts6 t
  unfold iblk6
  rw [View.read_apply]
  exact congrArg (V c main_v48) (Shape.idx_ext₂ (by show win6_0.index t (0 : Fin 2) * 2048 + 1 * (x 0).val = _; omega)
    (by show win6_0.index t (1 : Fin 2) * 256 + 1 * (x 1).val = _; omega))

-- The right factor's block at t is the whole array,
theorem iblk6_1_apply (x : S256x32.Idx) : (iblk6 V c 1 t : Vec Ideal S256x32 .f32) x = (V c main_arg6 : S256x32.Idx → EReal) x := by
  obtain ⟨-, -, e0, e1, -⟩ := idx_facts6 t
  unfold iblk6
  rw [View.read_apply]
  exact congrArg (V c main_arg6) (Shape.idx_ext₂ (by show win6_1.index t (0 : Fin 2) * 256 + 1 * (x 0).val = _; omega)
    (by show win6_1.index t (1 : Fin 2) * 32 + 1 * (x 1).val = _; omega))

-- and the bias row's block is the whole row.
theorem iblk6_2_apply (x : S1x32.Idx) : (iblk6 V c 2 t : Vec Ideal S1x32 .f32) x = (V c main_v49 : S1x32.Idx → EReal) x := by
  obtain ⟨-, -, -, -, e0, e1, -⟩ := idx_facts6 t
  unfold iblk6
  rw [View.read_apply]
  exact congrArg (V c main_v49) (Shape.idx_ext₂ (by show win6_2.index t (0 : Fin 2) * 1 + 1 * (x 0).val = _; omega)
    (by show win6_2.index t (1 : Fin 2) * 32 + 1 * (x 1).val = _; omega))

-- At point t the output block is block t of the layer's value on the three arrays.
theorem flushed6_eq : (dat6 (F := Ideal) V c).flushed 3 t = ((cfg6.win 3).blk t).view.read (Elt Ideal)
    (Cert.Spec.linBias (V c main_v48 : S51200x256.Idx → EReal) (V c main_arg6 : S256x32.Idx → EReal)
      (V c main_v49 : S1x32.Idx → EReal)) := by
  obtain ⟨-, -, -, -, -, -, e0, e1⟩ := idx_facts6 t
  funext j
  obtain ⟨p, q, rfl⟩ : ∃ (p : Fin 2048) (q : Fin 32), j = ix2 p q := ⟨j 0, j 1, eq_ix2 j⟩
  have eq : (⟨_, idx2_lt1 (((cfg6.win 3).blk t).view.emb (ix2 p q))⟩ : Fin 32) = q :=
    Fin.ext (by show win6_3.index t (1 : Fin 2) * 32 + 1 * q.val = q.val; omega)
  show k6_pay1 (iblk6 V c 0 t) (iblk6 V c 1 t) (iblk6 V c 2 t) (ix2 p q)
    = Cert.Spec.linBias _ _ _ (((cfg6.win 3).blk t).view.emb (ix2 p q))
  unfold Cert.Spec.linBias Cert.Spec.lin
  rw [pay6_apply, eq, iblk6_2_apply]
  refine congrArg (· + _) (Finset.sum_congr rfl fun k _ => ?_)
  rw [iblk6_0_apply V c t (ix2 p k) (ix2 ⟨_, idx2_lt0 (((cfg6.win 3).blk t).view.emb (ix2 p q))⟩ k)
    (by show win6_3.index t (0 : Fin 2) * 2048 + 1 * p.val = t.val * 2048 + p.val; omega) rfl, iblk6_1_apply]

-- Every index of the result array lies in the block of the point its row falls under.
theorem cover6 (i : S51200x32.Idx) : ∃ t : Fin cfg6.N, (cfg6.win 3).flush t = true ∧ i ∈ ((cfg6.win 3).blk t).view.set := by
  have hi0 : (i 0).val < 51200 := (i 0).isLt
  have hi1 : (i 1).val < 32 := (i 1).isLt
  have ht : (i 0).val / 2048 < 25 := by omega
  obtain ⟨-, -, -, -, -, -, e0, e1⟩ := idx_facts6 ⟨_, ht⟩
  refine ⟨⟨_, ht⟩, flush6_3 _, ?_⟩
  show i ∈ ((View.whole main_v50).slice (win6_3.rect ⟨_, ht⟩)).set
  rw [View.set_slice_whole, Rect.mem_set_unit]
  intro a
  match a with
  | ⟨0, _⟩ => show win6_3.index _ (0 : Fin 2) * 2048 ≤ (i 0).val ∧ (i 0).val < win6_3.index _ (0 : Fin 2) * 2048 + 2048; rw [e0]; show (i 0).val / 2048 * 2048 ≤ _ ∧ _ < (i 0).val / 2048 * 2048 + 2048; omega
  | ⟨1, _⟩ => show win6_3.index _ (1 : Fin 2) * 32 ≤ (i 1).val ∧ (i 1).val < win6_3.index _ (1 : Fin 2) * 32 + 32; rw [e1]; omega

theorem final6 : ((dat6 (F := Ideal) V c).arrAt 3 cfg6.N : S51200x32.Idx → EReal)
    = Cert.Spec.linBias (V c main_v48 : S51200x256.Idx → EReal) (V c main_arg6 : S256x32.Idx → EReal)
        (V c main_v49 : S1x32.Idx → EReal) :=
  (dat6 (F := Ideal) V c).arrAt_eq_of_cover 3 _ (fun t _ => flushed6_eq V c t) cover6

end Cert.KernelIdeal.Hand

end
-- ==== Proof.KI.Out.lean ====
import proofs.«146792_j51445118271859_1_alg».proof.Proof.KI.Run
import proofs.«146792_j51445118271859_1_alg».proof.Proof.KI.Val0
import proofs.«146792_j51445118271859_1_alg».proof.Proof.KI.Val1
import proofs.«146792_j51445118271859_1_alg».proof.Proof.KI.Val2
import proofs.«146792_j51445118271859_1_alg».proof.Proof.KI.Val3
import proofs.«146792_j51445118271859_1_alg».proof.Proof.KI.Val4
import proofs.«146792_j51445118271859_1_alg».proof.Proof.KI.Val5
import proofs.«146792_j51445118271859_1_alg».proof.Proof.KI.Val6
import proofs.«146792_j51445118271859_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Out

variable (m : (ℓ : Loc nD τ sig) → Buf (Elt Ideal) ℓ)

abbrev lay1 (c : Dev nD) : Cert.Spec.Mat 51200 256 :=
  Cert.Spec.lin (W3 m c main_v40 : S51200x128.Idx → EReal) (m ((c : Thread nD τ).loc main_arg2) : S128x256.Idx → EReal)

abbrev msg1 (c : Dev nD) : Cert.Spec.Mat 350208 256 :=
  Cert.Spec.kMsg (W3 m c main_v36 : S350208x1.Idx → BitVec 32) (W3 m c main_v38 : S350208x1.Idx → EReal) (lay1 m c)

abbrev nbr1 (c : Dev nD) : Cert.Spec.Mat 51200 256 :=
  Cert.Spec.kAgg (W3 m c main_v37 : S1x350208.Idx → BitVec 32) (msg1 m c) (W6 m c main_v43 : S1x256.Idx → EReal)

abbrev lay2 (c : Dev nD) : Cert.Spec.Mat 51200 256 :=
  Cert.Spec.lin (nbr1 m c) (m ((c : Thread nD τ).loc main_arg4) : S256x256.Idx → EReal)

abbrev msg2 (c : Dev nD) : Cert.Spec.Mat 350208 256 :=
  Cert.Spec.kMsg (W3 m c main_v36 : S350208x1.Idx → BitVec 32) (W3 m c main_v38 : S350208x1.Idx → EReal) (lay2 m c)

abbrev nbr2 (c : Dev nD) : Cert.Spec.Mat 51200 256 :=
  Cert.Spec.kAgg (W3 m c main_v37 : S1x350208.Idx → BitVec 32) (msg2 m c) (W10 m c main_v47 : S1x256.Idx → EReal)

abbrev net (c : Dev nD) : Cert.Spec.Mat 51200 32 :=
  Cert.Spec.linBias (nbr2 m c) (m ((c : Thread nD τ).loc main_arg6) : S256x32.Idx → EReal) (W12 m c main_v49 : S1x32.Idx → EReal)

theorem arg2_at3 (c : Dev nD) : V3 m c main_arg2 = m ((c : Thread nD τ).loc main_arg2) :=
  (V3_of m c main_arg2 (by decide)).trans <| (V2_of m c main_arg2 (by decide)).trans <| V1_of m c main_arg2 (by decide)
theorem arg4_at7 (c : Dev nD) : V7 m (outs m) c main_arg4 = m ((c : Thread nD τ).loc main_arg4) :=
  ((((((((V14_of m (outs m) c main_arg4 (by decide)).trans (V13_of m (outs m) c main_arg4 (by decide))).trans (V12_of m (outs m) c main_arg4 (by decide))).trans (V11_of m (outs m) c main_arg4 (by decide))).trans (V10_of m (outs m) c main_arg4 (by decide))).trans (V9_of m (outs m) c main_arg4 (by decide))).trans (V8_of m (outs m) c main_arg4 (by decide)))).symm.trans (V14_main_arg4 m (outs m) c)
theorem arg6_at12 (c : Dev nD) : V12 m (outs m) c main_arg6 = m ((c : Thread nD τ).loc main_arg6) :=
  (((V14_of m (outs m) c main_arg6 (by decide)).trans (V13_of m (outs m) c main_arg6 (by decide)))).symm.trans (V14_main_arg6 m (outs m) c)

theorem val41 (c : Dev nD) : (V4 m (outs m) c main_v41 : S51200x256.Idx → EReal) = lay1 m c := by
  have e : V4 m (outs m) c main_v41 = outs m 4 main_v41 c := Function.update_self _ _ _
  have a : entry0 m c main_arg2 = m ((c : Thread nD τ).loc main_arg2) := arg2_at3 m c
  rw [e, outs_0 m c, final0 (entry0 m) c, a]
  try rfl

theorem val42 (c : Dev nD) : (V5 m (outs m) c main_v42 : S350208x256.Idx → EReal) = msg1 m c := by
  have e : V5 m (outs m) c main_v42 = outs m 5 main_v42 c := Function.update_self _ _ _
  rw [e, outs_1 m c, final1 (entry1 m) c, entry1_eq m c main_v36, entry1_eq m c main_v38, entry1_eq m c main_v41,
    V4_of m (outs m) c main_v36 (by decide), V4_of m (outs m) c main_v38 (by decide), val41 m c]
  try rfl

theorem val44 (c : Dev nD) : (V7 m (outs m) c main_v44 : S51200x256.Idx → EReal) = nbr1 m c := by
  have e : V7 m (outs m) c main_v44 = outs m 7 main_v44 c := Function.update_self _ _ _
  rw [e, outs_2 m c, final2 (entry2 m) c, entry2_eq m c main_v37, entry2_eq m c main_v42,
    V6_of m (outs m) c main_v37 (by decide), V5_of m (outs m) c main_v37 (by decide), V4_of m (outs m) c main_v37 (by decide),
    V6_of m (outs m) c main_v42 (by decide), val42 m c]
  try rfl

theorem val45 (c : Dev nD) : (V8 m (outs m) c main_v45 : S51200x256.Idx → EReal) = lay2 m c := by
  have e : V8 m (outs m) c main_v45 = outs m 8 main_v45 c := Function.update_self _ _ _
  rw [e, outs_3 m c, final3 (entry3 m) c, entry3_eq m c main_v44, entry3_eq m c main_arg4,
    val44 m c, arg4_at7 m c]
  try rfl

theorem val46 (c : Dev nD) : (V9 m (outs m) c main_v46 : S350208x256.Idx → EReal) = msg2 m c := by
  have e : V9 m (outs m) c main_v46 = outs m 9 main_v46 c := Function.update_self _ _ _
  rw [e, outs_4 m c, final4 (entry4 m) c, entry4_eq m c main_v36, entry4_eq m c main_v38, entry4_eq m c main_v45,
    V8_of m (outs m) c main_v36 (by decide), V7_of m (outs m) c main_v36 (by decide), V6_of m (outs m) c main_v36 (by decide), V5_of m (outs m) c main_v36 (by decide), V4_of m (outs m) c main_v36 (by decide),
    V8_of m (outs m) c main_v38 (by decide), V7_of m (outs m) c main_v38 (by decide), V6_of m (outs m) c main_v38 (by decide), V5_of m (outs m) c main_v38 (by decide), V4_of m (outs m) c main_v38 (by decide),
    val45 m c]
  try rfl

theorem val48 (c : Dev nD) : (V11 m (outs m) c main_v48 : S51200x256.Idx → EReal) = nbr2 m c := by
  have e : V11 m (outs m) c main_v48 = outs m 11 main_v48 c := Function.update_self _ _ _
  rw [e, outs_5 m c, final5 (entry5 m) c, entry5_eq m c main_v37, entry5_eq m c main_v46,
    V10_of m (outs m) c main_v37 (by decide), V9_of m (outs m) c main_v37 (by decide), V8_of m (outs m) c main_v37 (by decide), V7_of m (outs m) c main_v37 (by decide), V6_of m (outs m) c main_v37 (by decide), V5_of m (outs m) c main_v37 (by decide), V4_of m (outs m) c main_v37 (by decide),
    V10_of m (outs m) c main_v46 (by decide), val46 m c]
  try rfl

theorem val50 (c : Dev nD) : (V13 m (outs m) c main_v50 : S51200x32.Idx → EReal) = net m c := by
  have e : V13 m (outs m) c main_v50 = outs m 13 main_v50 c := Function.update_self _ _ _
  rw [e, outs_6 m c, final6 (entry6 m) c, entry6_eq m c main_v48, entry6_eq m c main_arg6,
    V12_of m (outs m) c main_v48 (by decide), val48 m c, arg6_at12 m c]
  try rfl

theorem after7 (X : Valuation τ sig (Elt Ideal)) :
    StableHlo.after hostOps7 X main_v51
      = extractStridedSlice S50000x32 ![0, 0] (X main_v50) slices_S51200x32_S50000x32_0_0 := by
  rw [hostOps7]
  after_results
  try rfl

-- The last host line keeps the rows of the 50000 given nodes.
theorem kernel_out (c : Dev nD) (n : Fin 50000) (k : Fin 32) :
    (V14 m (outs m) c main_v51 : S50000x32.Idx → EReal) (ix2 n k) = net m c (ix2 (Fin.castAdd 1200 n) k) := by
  have e : V14 m (outs m) c main_v51 = _ := after7 (V13 m (outs m) c)
  rw [e, extractStridedSlice_apply (s := S51200x32) (t := S50000x32) ![0, 0] _ _ (ix2 n k)
      (ix2 (Fin.castAdd 1200 n) k) (fun a => by
        match a with
        | ⟨0, _⟩ => exact (Nat.zero_add _).symm
        | ⟨1, _⟩ => exact (Nat.zero_add _).symm), val50 m c]

end Out

end Cert.KernelIdeal.Hand

end
-- ==== Proof.KI.Host.lean ====
import proofs.«146792_j51445118271859_1_alg».proof.Proof.Gen.KernelIdeal.Regions
import proofs.«146792_j51445118271859_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil)

variable {F : FTy → Type} [FloatOps F]
variable (m : (ℓ : Loc nD τ sig) → Buf (Elt F) ℓ) (outs : Outs (F := F))

section Arrays
variable {α : Type}

theorem padCol_lt (a : S350000.Idx → α) (b : S208.Idx → α) (e : Fin 350000) :
    shapeCast S350208x1 (concatenate S350208 0 [⟨S350000, a⟩, ⟨S208, b⟩] concatenates_S350000_S208_S350208_d0)
      shapeCasts_S350208_S350208x1 (ix2 (Fin.castAdd 208 e) 0) = a (ix1 e) := by
  rw [shapeCast_apply _ _ (ix2 (Fin.castAdd 208 e) 0) (ix1 (Fin.castAdd 208 e)) (by
    rw [Shape.rowMajor_val_one, Shape.rowMajor_val_two]; show e.val = e.val * 1 + 0; omega)]
  exact concatenate_pair_apply_left 0 a b _ (ix1 (Fin.castAdd 208 e)) rfl (ix1 e) (fun b => match b with | ⟨0, _⟩ => rfl)

theorem padRow_lt (a : S350000.Idx → α) (b : S208.Idx → α) (e : Fin 350000) :
    shapeCast S1x350208 (concatenate S350208 0 [⟨S350000, a⟩, ⟨S208, b⟩] concatenates_S350000_S208_S350208_d0)
      shapeCasts_S350208_S1x350208 (ix2 0 (Fin.castAdd 208 e)) = a (ix1 e) := by
  rw [shapeCast_apply _ _ (ix2 0 (Fin.castAdd 208 e)) (ix1 (Fin.castAdd 208 e)) (by
    rw [Shape.rowMajor_val_one, Shape.rowMajor_val_two]; show e.val = 0 * 350208 + e.val; omega)]
  exact concatenate_pair_apply_left 0 a b _ (ix1 (Fin.castAdd 208 e)) rfl (ix1 e) (fun b => match b with | ⟨0, _⟩ => rfl)

theorem padRow_ge (a : S350000.Idx → α) (b : S208.Idx → α) (i : Fin 208) :
    shapeCast S1x350208 (concatenate S350208 0 [⟨S350000, a⟩, ⟨S208, b⟩] concatenates_S350000_S208_S350208_d0)
      shapeCasts_S350208_S1x350208 (ix2 0 (Fin.natAdd 350000 i)) = b (ix1 i) := by
  rw [shapeCast_apply _ _ (ix2 0 (Fin.natAdd 350000 i)) (ix1 (Fin.natAdd 350000 i)) (by
    rw [Shape.rowMajor_val_one, Shape.rowMajor_val_two]; show 350000 + i.val = 0 * 350208 + (350000 + i.val); omega)]
  exact concatenate_pair_apply_right 0 a b _ (ix1 (Fin.natAdd 350000 i)) rfl rfl (ix1 i)
    (fun b hb => match b, hb with | ⟨0, _⟩, hb => absurd rfl hb) (Nat.add_comm i.val 350000)

theorem ends_lt (x1 : S2x300000.Idx → α) (off : Fin 2 → Nat) (hs : S2x300000.Slices off S1x300000) (row : Fin 2)
    (h0 : off 0 = row.val) (h1 : off 1 = 0) (io : S50000.Idx → α) (e : Fin 350000) (h : e.val < 300000) :
    concatenate S350000 0
        [⟨S300000, shapeCast S300000 (extractStridedSlice S1x300000 off x1 hs) shapeCasts_S1x300000_S300000⟩, ⟨S50000, io⟩]
        concatenates_S300000_S50000_S350000_d0 (ix1 e)
      = x1 (ix2 row ⟨e.val, h⟩) := by
  rw [concatenate_pair_apply_left (s₁ := S300000) (s₂ := S50000) 0 _ io _ (ix1 e) rfl (ix1 (⟨e.val, h⟩ : Fin 300000))
    (fun b => match b with | ⟨0, _⟩ => rfl)]
  rw [shapeCast_apply _ _ (ix1 (⟨e.val, h⟩ : Fin 300000)) (ix2 (0 : Fin 1) (⟨e.val, h⟩ : Fin 300000)) (by
    rw [Shape.rowMajor_val_one, Shape.rowMajor_val_two]; show 0 * 300000 + e.val = e.val; omega)]
  exact extractStridedSlice_apply off x1 hs _ (ix2 row ⟨e.val, h⟩) (fun a => match a with
    | ⟨0, _⟩ => by show row.val = off 0 + 0; omega
    | ⟨1, _⟩ => by show e.val = off 1 + e.val; omega)

theorem ends_ge (a : S300000.Idx → BitVec 32) (e : Fin 350000) (h : ¬ e.val < 300000) :
    concatenate S350000 0 [⟨S300000, a⟩, ⟨S50000, iotaInDim S50000 32 0⟩] concatenates_S300000_S50000_S350000_d0 (ix1 e)
      = BitVec.ofNat 32 (e.val - 300000) := by
  rw [concatenate_pair_apply_right 0 a (iotaInDim S50000 32 0) _ (ix1 e) rfl rfl
    (ix1 (⟨e.val - 300000, by have := e.isLt; omega⟩ : Fin 50000))
    (fun b hb => match b, hb with | ⟨0, _⟩, hb => absurd rfl hb)
    (by show (e.val - 300000) + 300000 = e.val; omega)]
  rfl

theorem ends_eq (x1 : S2x300000.Idx → BitVec 32) (hr : Cert.Spec.InRange x1) (off : Fin 2 → Nat)
    (hs : S2x300000.Slices off S1x300000) (row : Fin 2) (h0 : off 0 = row.val) (h1 : off 1 = 0) (e : Fin 350000) :
    concatenate S350000 0
        [⟨S300000, shapeCast S300000 (extractStridedSlice S1x300000 off x1 hs) shapeCasts_S1x300000_S300000⟩,
          ⟨S50000, iotaInDim S50000 32 0⟩]
        concatenates_S300000_S50000_S350000_d0 (ix1 e)
      = BitVec.ofNat 32 (Cert.Spec.endOf x1 hr row e).val := by
  by_cases h : e.val < 300000
  · rw [ends_lt x1 off hs row h0 h1 _ e h, Cert.Spec.endOf_lt x1 hr row e h]
    exact Cert.Spec.eq_ofNat_of_range (hr _)
  · rw [ends_ge _ e h, Cert.Spec.endOf_ge x1 hr row e h]

theorem padRows_lt (a : S50000x128.Idx → α) (b : S1200x128.Idx → α) (v : Fin 50000) (k : Fin 128) :
    concatenate S51200x128 0 [⟨S50000x128, a⟩, ⟨S1200x128, b⟩] concatenates_S50000x128_S1200x128_S51200x128_d0
      (ix2 (Fin.castAdd 1200 v) k) = a (ix2 v k) :=
  concatenate_pair_apply_left 0 a b _ (ix2 (Fin.castAdd 1200 v) k) rfl (ix2 v k) (fun b => match b with | ⟨0, _⟩ => rfl | ⟨1, _⟩ => rfl)

theorem row256 (a : S256.Idx → α) (f : Fin 256) : shapeCast S1x256 a shapeCasts_S256_S1x256 (ix2 0 f) = a (ix1 f) :=
  shapeCast_apply _ _ (ix2 0 f) (ix1 f) (by
    rw [Shape.rowMajor_val_one, Shape.rowMajor_val_two]; show f.val = 0 * 256 + f.val; omega)

theorem row32 (a : S32.Idx → α) (f : Fin 32) : shapeCast S1x32 a shapeCasts_S32_S1x32 (ix2 0 f) = a (ix1 f) :=
  shapeCast_apply _ _ (ix2 0 f) (ix1 f) (by
    rw [Shape.rowMajor_val_one, Shape.rowMajor_val_two]; show f.val = 0 * 32 + f.val; omega)

end Arrays

section Cut
variable {Val : EltTy → Type}

theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

theorem after_take_drop (n : Nat) (ops : List (HloOp τ sig Val)) (V : Valuation τ sig Val) :
    StableHlo.after ops V = StableHlo.after (ops.drop n) (StableHlo.after (ops.take n) V) := by
  rw [← after_append, List.take_append_drop]

end Cut

section Prepared

abbrev edgeArg (c : Dev nD) : S2x300000.Idx → BitVec 32 := m ((c : Thread nD τ).loc main_arg1)

theorem host_src_lt (c : Dev nD) (hr : Cert.Spec.InRange (edgeArg m c)) (e : Fin 350000) :
    (V3 m c main_v36 : S350208x1.Idx → BitVec 32) (ix2 (Fin.castAdd 208 e) 0)
      = BitVec.ofNat 32 (Cert.Spec.endOf (edgeArg m c) hr 0 e).val := by
  dsimp only [V3]; after_results
  exact (padCol_lt _ _ e).trans (ends_eq (edgeArg m c) hr ![0, 0] _ 0 rfl rfl e)

theorem host_dst_lt (c : Dev nD) (hr : Cert.Spec.InRange (edgeArg m c)) (e : Fin 350000) :
    (V3 m c main_v37 : S1x350208.Idx → BitVec 32) (ix2 0 (Fin.castAdd 208 e))
      = BitVec.ofNat 32 (Cert.Spec.endOf (edgeArg m c) hr 1 e).val := by
  dsimp only [V3]; after_results
  exact (padRow_lt _ _ e).trans (ends_eq (edgeArg m c) hr ![1, 0] _ 1 rfl rfl e)

-- Past the edge list the destination word is all ones, which names no node.
theorem host_dst_ge (c : Dev nD) (i : Fin 208) :
    (V3 m c main_v37 : S1x350208.Idx → BitVec 32) (ix2 0 (Fin.natAdd 350000 i)) = 4294967295#32 := by
  dsimp only [V3]; after_results
  exact padRow_ge _ _ i

theorem host_xpad (c : Dev nD) (v : Fin 50000) (k : Fin 128) :
    (V3 m c main_v40 : S51200x128.Idx → Elt F .f32) (ix2 (Fin.castAdd 1200 v) k)
      = (m ((c : Thread nD τ).loc main_arg0) : S50000x128.Idx → Elt F .f32) (ix2 v k) := by
  dsimp only [V3]; after_results
  exact padRows_lt _ _ v k

end Prepared

section Factors

-- The factor column is the factors followed by zeros.
theorem host_nrm (c : Dev nD) (e : Fin 350000) :
    (V3 m c main_v38 : S350208x1.Idx → Elt F .f32) (ix2 (Fin.castAdd 208 e) 0)
      = (V3 m c main_v29 : S350000.Idx → Elt F .f32) (ix1 e) := by
  dsimp only [V3]
  rw [after_take_drop 19 hostOps0_2 (V2 m c)]
  generalize StableHlo.after (List.take 19 hostOps0_2) (V2 m c) = W
  simp only [hostOps0_2, List.drop_succ_cons, List.drop_zero]
  after_results
  exact padCol_lt _ _ e

end Factors

section Between

-- No item writes a bias vector before the line that lays it out as a row.
theorem V5_arg3 (c : Dev nD) : V5 m outs c main_arg3 = m ((c : Thread nD τ).loc main_arg3) :=
  (V5_of m outs c main_arg3 (by decide)).trans <| (V4_of m outs c main_arg3 (by decide)).trans <|
  (V3_of m c main_arg3 (by decide)).trans <| (V2_of m c main_arg3 (by decide)).trans <|
  (V1_of m c main_arg3 (by decide)).trans rfl

theorem V9_arg5 (c : Dev nD) : V9 m outs c main_arg5 = m ((c : Thread nD τ).loc main_arg5) :=
  ((V14_of m outs c main_arg5 (by decide)).trans <| (V13_of m outs c main_arg5 (by decide)).trans <|
    (V12_of m outs c main_arg5 (by decide)).trans <| (V11_of m outs c main_arg5 (by decide)).trans <|
    V10_of m outs c main_arg5 (by decide)).symm.trans (V14_main_arg5 m outs c)

theorem V11_arg7 (c : Dev nD) : V11 m outs c main_arg7 = m ((c : Thread nD τ).loc main_arg7) :=
  ((V14_of m outs c main_arg7 (by decide)).trans <| (V13_of m outs c main_arg7 (by decide)).trans <|
    V12_of m outs c main_arg7 (by decide)).symm.trans (V14_main_arg7 m outs c)

theorem host_b1 (c : Dev nD) (f : Fin 256) :
    (V6 m outs c main_v43 : S1x256.Idx → Elt F .f32) (ix2 0 f)
      = (m ((c : Thread nD τ).loc main_arg3) : S256.Idx → Elt F .f32) (ix1 f) := by
  dsimp only [V6]; after_results
  exact (row256 _ f).trans (congrFun (V5_arg3 m outs c) (ix1 f))

theorem host_b2 (c : Dev nD) (f : Fin 256) :
    (V10 m outs c main_v47 : S1x256.Idx → Elt F .f32) (ix2 0 f)
      = (m ((c : Thread nD τ).loc main_arg5) : S256.Idx → Elt F .f32) (ix1 f) := by
  dsimp only [V10]; after_results
  exact (row256 _ f).trans (congrFun (V9_arg5 m outs c) (ix1 f))

theorem host_b3 (c : Dev nD) (f : Fin 32) :
    (V12 m outs c main_v49 : S1x32.Idx → Elt F .f32) (ix2 0 f)
      = (m ((c : Thread nD τ).loc main_arg7) : S32.Idx → Elt F .f32) (ix1 f) := by
  dsimp only [V12]; after_results
  exact (row32 _ f).trans (congrFun (V11_arg7 m outs c) (ix1 f))

end Between

end Cert.KernelIdeal.Hand
end
-- ==== Proof.KI.Host.NrmRef.lean ====
import proofs.«146792_j51445118271859_1_alg».proof.Proof.KI.Host
import proofs.«146792_j51445118271859_1_alg».proof.Proof.RefReadP
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil)

variable {F : FTy → Type} [FloatOps F]
variable (m : (ℓ : Loc nD τ sig) → Buf (Elt F) ℓ) (outs : Outs (F := F))

section Reference

theorem ref_v5 (c : Dev nD) :
    (V1 m c main_v5 : S350000.Idx → BitVec 32) = Cert.ReferenceIdeal.Read.val_main_v5 (F := F) (edgeArg m c) := by
  dsimp only [V1]; after_results
  rfl

theorem ref_v6 (c : Dev nD) :
    (V1 m c main_v6 : S350000.Idx → BitVec 32) = Cert.ReferenceIdeal.Read.val_main_v6 (F := F) (edgeArg m c) := by
  dsimp only [V1]; after_results
  rfl

theorem ref_v10 (c : Dev nD) :
    (V1 m c main_v10 : S50000.Idx → Elt F .f32) = Cert.ReferenceIdeal.Read.val_main_v10 (F := F) (edgeArg m c) := by
  dsimp only [V1]; after_results
  rfl

theorem ref_v12 (c : Dev nD) :
    (V1 m c main_v12 : S50000.Idx → Elt F .i1) = Cert.ReferenceIdeal.Read.val_main_v12 (F := F) (edgeArg m c) := by
  have t : (V1 m c main_v12 : S50000.Idx → Elt F .i1)
      = cmpf (F := F) .ogt (V1 m c main_v10 : S50000.Idx → Elt F .f32)
          (broadcastInDim S50000 ![] bcast_S_S50000 (constant (F := F) S_ .f32 0x00000000#32)) := by
    dsimp only [V1]
    rw [after_take_drop 13 hostOps0 (V0 m c)]
    generalize StableHlo.after (List.take 13 hostOps0) (V0 m c) = W
    simp only [hostOps0, List.drop_succ_cons, List.drop_zero]
    after_results <;> rfl
  rw [t, ref_v10]
  rfl

theorem ref_v13 (c : Dev nD) :
    (V1 m c main_v13 : S50000.Idx → Elt F .f32) = Cert.ReferenceIdeal.Read.val_main_v13 (F := F) (edgeArg m c) := by
  have t : (V1 m c main_v13 : S50000.Idx → Elt F .f32) = Host.rsqrt (V1 m c main_v10 : S50000.Idx → Elt F .f32) := by
    dsimp only [V1]
    rw [after_take_drop 13 hostOps0 (V0 m c)]
    generalize StableHlo.after (List.take 13 hostOps0) (V0 m c) = W
    simp only [hostOps0, List.drop_succ_cons, List.drop_zero]
    after_results <;> rfl
  rw [t, ref_v10]
  rfl

theorem ref_cst_2 (c : Dev nD) :
    (V1 m c main_cst_2 : S_.Idx → Elt F .f32) = Cert.ReferenceIdeal.Read.val_main_cst_2 (F := F) := by
  dsimp only [V1]; after_results <;> rfl

theorem ref_v14 (c : Dev nD) :
    (V2 m c main_v14 : S50000.Idx → Elt F .f32) = Cert.ReferenceIdeal.Read.val_main_v14 (F := F) (edgeArg m c) := by
  have t : (V2 m c main_v14 : S50000.Idx → Elt F .f32)
      = select (V1 m c main_v12 : S50000.Idx → Elt F .i1) (V1 m c main_v13 : S50000.Idx → Elt F .f32)
          (broadcastInDim S50000 ![] bcast_S_S50000 (id (V1 m c main_cst_2 : S_.Idx → Elt F .f32))) := by
    dsimp only [V2]
    generalize V1 m c = W
    after_results <;> rfl
  rw [t, ref_v12, ref_v13, ref_cst_2]
  rfl

set_option maxHeartbeats 4000000 in
-- The product of the two reads of the inverse square-root degrees at the endpoints, stage by stage the reference's.
theorem host_nrm_ref (c : Dev nD) :
    (V3 m c main_v29 : S350000.Idx → Elt F .f32) = Cert.ReferenceIdeal.Read.val_main_v29 (F := F) (edgeArg m c) := by
  dsimp only [V3]
  rw [after_take_drop 19 hostOps0_2 (V2 m c)]
  generalize hW : StableHlo.after (List.take 19 hostOps0_2) (V2 m c) = W
  simp only [hostOps0_2, List.drop_succ_cons, List.drop_zero]
  after_results
  subst hW
  generalize hX : V2 m c = X
  simp only [hostOps0_2, List.take_succ_cons, List.take_zero]
  after_results
  subst hX
  rw [V2_of m c main_v5 (by decide), V2_of m c main_v6 (by decide), ref_v14, ref_v5, ref_v6]
  rfl

end Reference

end Cert.KernelIdeal.Hand
end
-- ==== Proof.Ref.Pre.lean ====
import proofs.«146792_j51445118271859_1_alg».proof.Pre_finite_inputs
import proofs.«146792_j51445118271859_1_alg».proof.Proof.Spec
import Idealize.ShloMosaic.Lib.ReduceAll

noncomputable section

namespace Cert.ReferenceIdeal.Hand

open Idealize.ShloMosaic Cert.Pre_finite_inputs

-- A conjunction of one-bit words is 1 only when every conjunct is; a signed comparison word is 1 exactly when the readings compare so.
theorem range_of_pre {F : FTy → Type} [FloatOps F] [Facts]
    (a0 : FVec F S50000x128 .f32) (a1 : IVec S2x300000 32) (a2 : FVec F S128x256 .f32) (a3 : FVec F S256 .f32)
    (a4 : FVec F S256x256 .f32) (a5 : FVec F S256 .f32) (a6 : FVec F S256x32 .f32) (a7 : FVec F S32 .f32)
    (h : fn (F := F) a0 a1 a2 a3 a4 a5 a6 a7 = (fun _ => 1#1)) : Cert.Spec.InRange a1 := by
  have e := congrFun h (fun d => d.elim0)
  simp only [fn, fn_part1, fn_part2, andi] at e
  rw [IntOp.andi_eq_one, IntOp.andi_eq_one] at e
  obtain ⟨⟨-, hge⟩, hlt⟩ := e
  intro i
  have h1 := Host.reduce_andi_all _ _ _ _ _ hge i
  have h2 := Host.reduce_andi_all _ _ _ _ _ hlt i
  rw [show ∀ (x y : IVec S2x300000 32) (p : CmpIPredicate), cmpi p x y i = IntOp.cmpi p (x i) (y i) from
    fun _ _ _ => rfl] at h1 h2
  rw [IntOp.cmpi_sge] at h1
  rw [IntOp.cmpi_slt] at h2
  exact ⟨h1, h2⟩

end Cert.ReferenceIdeal.Hand

end
-- ==== Proof.Ref.Edges.lean ====
import proofs.«146792_j51445118271859_1_alg».proof.Proof.RefReadP
import proofs.«146792_j51445118271859_1_alg».proof.Proof.Spec
import Idealize.ShloMosaic.Lib.Affine

noncomputable section

namespace Cert.ReferenceIdeal.Hand

open Cert.ReferenceIdeal Cert.ReferenceIdeal.Gen Idealize.ShloMosaic Idealize.ShloMosaic.ValueIdx Cert.Spec

variable {F : FTy → Type} [FloatOps F]

theorem v1_at (x1 : IMat 2 300000) (k : Fin 300000) : Read.val_main_v1 (F := F) x1 (ix1 k) = x1 (ix2 0 k) := by
  rw [Read.val_main_v1_apply, Read.val_main_v0_apply]
  refine congrArg x1 (funext fun a => Fin.ext ?_)
  match a with
  | ⟨0, _⟩ => rfl
  | ⟨1, _⟩ => exact Nat.mod_eq_of_lt k.isLt

theorem v3_at (x1 : IMat 2 300000) (k : Fin 300000) : Read.val_main_v3 (F := F) x1 (ix1 k) = x1 (ix2 1 k) := by
  rw [Read.val_main_v3_apply, Read.val_main_v2_apply]
  refine congrArg x1 (funext fun a => Fin.ext ?_)
  match a with
  | ⟨0, _⟩ => rfl
  | ⟨1, _⟩ => exact Nat.mod_eq_of_lt k.isLt

-- A row of given endpoints followed by the node numbers holds, at edge e, the word of that endpoint of e.
theorem ends_at (x1 : IMat 2 300000) (hr : InRange x1) (row : Fin 2) (a : S300000.Idx → BitVec 32)
    (ha : ∀ k : Fin 300000, a (ix1 k) = x1 (ix2 row k))
    (hc : Shape.Concatenates [S300000, S50000] S350000 0) (e : Fin 350000) :
    concatenate S350000 0 [⟨S300000, a⟩, ⟨S50000, iotaInDim S50000 32 0⟩] hc (ix1 e)
      = BitVec.ofNat 32 (endOf x1 hr row e).val := by
  by_cases h : e.val < 300000
  · rw [concatenate_pair_apply_left 0 a _ hc (ix1 e) rfl (ix1 ⟨e.val, h⟩) (fun c => by match c with | ⟨0, _⟩ => rfl),
      ha, endOf_lt x1 hr row e h]
    exact eq_ofNat_of_range (hr _)
  · rw [concatenate_pair_apply_right 0 a _ hc (ix1 e) rfl rfl (ix1 ⟨e.val - 300000, by have := e.isLt; omega⟩)
      (fun c hne => absurd (Subsingleton.elim _ _) hne) (by show e.val - 300000 + 300000 = e.val; omega),
      endOf_ge x1 hr row e h]
    rfl

theorem v5_at (x1 : IMat 2 300000) (hr : InRange x1) (e : Fin 350000) :
    Read.val_main_v5 (F := F) x1 (ix1 e) = BitVec.ofNat 32 (endOf x1 hr 0 e).val :=
  ends_at x1 hr 0 _ (v1_at x1) _ e

theorem v6_at (x1 : IMat 2 300000) (hr : InRange x1) (e : Fin 350000) :
    Read.val_main_v6 (F := F) x1 (ix1 e) = BitVec.ofNat 32 (endOf x1 hr 1 e).val :=
  ends_at x1 hr 1 _ (v3_at x1) _ e

-- So "add 50000 to a negative index" leaves a node's word as it is.
theorem wrap_node (k : Fin 50000) (c : BitVec 32) :
    Scalar.select (IntOp.cmpi .slt (BitVec.ofNat 32 k.val) 0#32) (IntOp.addi (BitVec.ofNat 32 k.val) c) (BitVec.ofNat 32 k.val)
      = BitVec.ofNat 32 k.val := by
  have hne : ¬ IntOp.cmpi .slt (BitVec.ofNat 32 k.val) 0#32 = 1#1 := by
    rw [IntOp.cmpi_slt, toInt_node, show (0#32 : BitVec 32).toInt = 0 from rfl]
    omega
  rw [eq_zero_of_ne_one hne, select_zero]

theorem v36_at (x1 : IMat 2 300000) (hr : InRange x1) (e : Fin 350000) :
    Read.val_main_v36 (F := F) x1 (ix2 e (0 : Fin 1)) = BitVec.ofNat 32 (endOf x1 hr 0 e).val := by
  rw [Read.val_main_v36_apply, show Read.idx_main_v36 (ix2 e (0 : Fin 1)) = ix1 e from funext fun a => by match a with | ⟨0, _⟩ => rfl,
    Read.val_main_v35_apply, Read.val_main_v32_apply, Read.val_main_v34_apply, Read.val_main_v31_apply,
    Read.val_main_c_6_apply, v5_at x1 hr e]
  exact wrap_node _ _

theorem v42_at (x1 : IMat 2 300000) (hr : InRange x1) (e : Fin 350000) :
    Read.val_main_v42 (F := F) x1 (ix2 e (0 : Fin 1)) = BitVec.ofNat 32 (endOf x1 hr 1 e).val := by
  rw [Read.val_main_v42_apply, show Read.idx_main_v42 (ix2 e (0 : Fin 1)) = ix1 e from funext fun a => by match a with | ⟨0, _⟩ => rfl, v6_at x1 hr e]

end Cert.ReferenceIdeal.Hand

end
-- ==== Proof.Ref.Conv.lean ====
import Idealize.ShloMosaic.PureOps.Ideal
import Idealize.ShloMosaic.PureOps.Contract
import Idealize.ShloMosaic.Lib.ValueIdx
import proofs.«146792_j51445118271859_1_alg».proof.ReferenceIdeal
import proofs.«146792_j51445118271859_1_alg».proof.Proof.Spec

noncomputable section

open scoped BigOperators

namespace Cert.ReferenceIdeal.Hand

open Idealize.ShloMosaic Idealize.ShloMosaic.ValueIdx

section RowGather
variable {α : Type}

abbrev rowTakeDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowTakeDims N C R wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowTakeDims N C R wf).start (ix2 e f) idx 0 + (rowTakeDims N C R wf).batchCoord (ix2 e f) 0
        + (rowTakeDims N C R wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N C R wf).startIndexMap from List.mem_singleton.mpr rfl)]
    have hsi : (rowTakeDims N C R wf).siIdx (ix2 e f) ⟨List.idxOf (0 : Fin 2) (rowTakeDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTakeDims N C R wf).start (ix2 e f) idx 1 + (rowTakeDims N C R wf).batchCoord (ix2 e f) 1
        + (rowTakeDims N C R wf).offCoord (ix2 e f) 1 = f.val
    rw [GatherDims.batchCoord_eq_zero _ _ _ List.not_mem_nil]
    have hs : (rowTakeDims N C R wf).start (ix2 e f) idx 1 = 0 := by
      unfold GatherDims.start
      rw [dif_neg (fun h => absurd (congrArg Fin.val (List.mem_singleton.mp h)) Nat.one_ne_zero)]
    have hk : (1 : Fin 2) ∈ (rowTakeDims N C R wf).sKept :=
      (GatherDims.mem_sKept _ _).mpr ⟨fun h => absurd (congrArg Fin.val (List.mem_singleton.mp h)) Nat.one_ne_zero, List.not_mem_nil⟩
    have ho : (rowTakeDims N C R wf).offCoord (ix2 e f) 1 = f.val := by
      unfold GatherDims.offCoord
      rw [dif_pos hk]
      rfl
    rw [hs, ho]; omega

end RowGather

section RowScatter

abbrev rowPutDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N C R w : Nat} (wf : ScatterDims.WF ⟨2, ![N, C]⟩ ⟨2, ![R, 1]⟩ ⟨2, ![R, C]⟩ [1] [0] [0] 1)

theorem rowPut_start0 (j : (⟨2, ![R, C]⟩ : Shape).Idx) (idx : IVec ⟨2, ![R, 1]⟩ w) :
    (rowPutDims N C R wf).start j idx 0 = (idx (ix2 (⟨(j 0).val, idx2_lt0 j⟩ : Fin R) (0 : Fin 1))).toInt := by
  unfold ScatterDims.start
  rw [dif_pos (show (0 : Fin 2) ∈ (rowPutDims N C R wf).scatterDimsToOperandDims from List.mem_singleton.mpr rfl)]
  have hsi : (rowPutDims N C R wf).siIdx j ⟨List.idxOf (0 : Fin 2) (rowPutDims N C R wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

theorem rowPut_start1 (j : (⟨2, ![R, C]⟩ : Shape).Idx) (idx : IVec ⟨2, ![R, 1]⟩ w) :
    (rowPutDims N C R wf).start j idx 1 = 0 := by
  unfold ScatterDims.start
  rw [dif_neg (fun h => absurd (congrArg Fin.val (List.mem_singleton.mp h)) Nat.one_ne_zero)]

theorem rowPut_window0 (j : (⟨2, ![R, C]⟩ : Shape).Idx) : (rowPutDims N C R wf).window j 0 = 0 := by
  unfold ScatterDims.window
  rw [dif_neg]
  simp [ScatterDims.sKept, Shape.kept, List.mem_filter, List.mem_finRange]

theorem rowPut_window1 (j : (⟨2, ![R, C]⟩ : Shape).Idx) : (rowPutDims N C R wf).window j 1 = (j 1).val := by
  unfold ScatterDims.window
  rw [dif_pos (by simp [ScatterDims.sKept, Shape.kept, List.mem_filter, List.mem_finRange])]
  rfl

-- Update (e, b) lands at (n, f) exactly when the e-th scatter index reads n and b is f.
theorem rowPut_lands_iff (e : Fin R) (b : Fin C) (idx : IVec ⟨2, ![R, 1]⟩ w) (n : Fin N) (f : Fin C) :
    (rowPutDims N C R wf).resultIdx? (ix2 e b) idx = some (ix2 n f)
      ↔ (idx (ix2 e (0 : Fin 1))).toInt = (n.val : ℤ) ∧ b = f := by
  have hn := n.isLt
  have hf := f.isLt
  have hb := b.isLt
  have p0 : (rowPutDims N C R wf).start (ix2 e b) idx 0 + (rowPutDims N C R wf).window (ix2 e b) 0
      = (idx (ix2 e (0 : Fin 1))).toInt := by rw [rowPut_start0, rowPut_window0]; exact Int.add_zero _
  have p1 : (rowPutDims N C R wf).start (ix2 e b) idx 1 + (rowPutDims N C R wf).window (ix2 e b) 1 = (b.val : ℤ) := by
    rw [rowPut_start1, rowPut_window1, zero_add]; rfl
  unfold ScatterDims.resultIdx?
  split
  · rename_i h
    obtain ⟨h0, -⟩ := Fin.forall_fin_two.mp h
    rw [p0] at h0
    rw [Option.some.injEq]
    constructor
    · intro he
      have e0 : ((rowPutDims N C R wf).start (ix2 e b) idx 0 + (rowPutDims N C R wf).window (ix2 e b) 0).toNat = n.val :=
        congrArg Fin.val (congrFun he 0)
      have e1 : ((rowPutDims N C R wf).start (ix2 e b) idx 1 + (rowPutDims N C R wf).window (ix2 e b) 1).toNat = f.val :=
        congrArg Fin.val (congrFun he 1)
      rw [p0] at e0
      rw [p1] at e1
      exact ⟨by omega, Fin.ext (by omega)⟩
    · rintro ⟨he0, rfl⟩
      funext a
      refine Fin.ext ?_
      match a with
      | ⟨0, _⟩ =>
        show ((rowPutDims N C R wf).start (ix2 e b) idx 0 + (rowPutDims N C R wf).window (ix2 e b) 0).toNat = n.val
        rw [p0]; omega
      | ⟨1, _⟩ =>
        show ((rowPutDims N C R wf).start (ix2 e b) idx 1 + (rowPutDims N C R wf).window (ix2 e b) 1).toNat = b.val
        rw [p1]; omega
  · rename_i h
    refine ⟨fun he => absurd he (by simp), fun ⟨he0, he1⟩ => (h (Fin.forall_fin_two.mpr ⟨?_, ?_⟩)).elim⟩
    · rw [p0]; exact ⟨by omega, by show _ < (N : ℤ); omega⟩
    · rw [p1]; exact ⟨by omega, by show _ < (C : ℤ); omega⟩

theorem scatterAdd_rows_apply (X : (⟨2, ![N, C]⟩ : Shape).Idx → EReal) (idx : IVec ⟨2, ![R, 1]⟩ w)
    (U : (⟨2, ![R, C]⟩ : Shape).Idx → EReal) (n : Fin N) (f : Fin C) :
    Ideal.hostScatterAdd (rowPutDims N C R wf) X idx U (ix2 n f)
      = X (ix2 n f) + ∑ e ∈ Finset.univ.filter (fun e : Fin R => (idx (ix2 e (0 : Fin 1))).toInt = (n.val : ℤ)),
          U (ix2 e f) := by
  unfold Ideal.hostScatterAdd
  congr 1
  rw [Finset.sum_filter, sum_idx2, Finset.sum_filter]
  refine Finset.sum_congr rfl fun e _ => ?_
  simp only [rowPut_lands_iff]
  by_cases hc : (idx (ix2 e (0 : Fin 1))).toInt = (n.val : ℤ)
  · rw [if_pos hc, Finset.sum_eq_single f]
    · rw [if_pos ⟨hc, rfl⟩]
    · intro b _ hb
      exact if_neg fun h => hb h.2
    · intro h
      exact absurd (Finset.mem_univ f) h
  · rw [if_neg hc]
    exact Finset.sum_eq_zero fun b _ => if_neg fun h => hc h.1

end RowScatter

section Records

open Cert.ReferenceIdeal

variable [Cert.ReferenceIdeal.Facts₀]

-- One convolution: rows gathered at the sources and scaled, added into zeros at the destinations, bias added, clipped at zero.
theorem conv_layer (src dst : Fin 350000 → Fin 50000) (nrm : Fin 350000 → EReal) (b : Fin 256 → EReal)
    (H : Spec.Mat 50000 256) (iS iD : IVec S350000x1 32) (W : Spec.Mat 350000 256) (Z B Zr : Spec.Mat 50000 256)
    (hS : ∀ e, iS (ix2 e (0 : Fin 1)) = BitVec.ofNat 32 (src e).val)
    (hD : ∀ e, iD (ix2 e (0 : Fin 1)) = BitVec.ofNat 32 (dst e).val)
    (hW : ∀ e f, W (ix2 e f) = nrm e) (hZ : ∀ i, Z i = 0) (hB : ∀ n f, B (ix2 n f) = b f) (hZr : ∀ i, Zr i = 0)
    (n : Fin 50000) (f : Fin 256) :
    maximumf (F := Ideal) (φ := .f32)
        (addf (Host.scatterAdd scatter_S50000x256_S350000x1_S350000x256_1_0_0_1 Z iD
          (mulf (Host.gather gather_S50000x256_S350000x1_S350000x256_1_0_n_n_0_1_1256 H iS) W)) B) Zr (ix2 n f)
      = Spec.rConv src dst nrm H b (ix2 n f) := by
  rw [Spec.rConv_ix2]
  refine (congrArg₂ max (congrArg₂ (· + ·)
    (scatterAdd_rows_apply Facts₀.scatter_S50000x256_S350000x1_S350000x256_1_0_0_1_wf Z iD _ n f) (hB n f)) (hZr _)).trans ?_
  rw [hZ, zero_add]
  refine congrArg (fun s : EReal => max (s + b f) 0) (Finset.sum_congr ?_ fun e _ => ?_)
  · ext e
    rw [Finset.mem_filter, Finset.mem_filter, hD, Spec.toInt_node, Nat.cast_inj]
  · refine (congrArg₂ (· * ·) ((gather_rows_apply (by decide)
      Facts₀.gather_S50000x256_S350000x1_S350000x256_1_0_n_n_0_1_1256_wf H iS e f).trans ?_) (hW e f))
    refine congrArg (fun r => H (ix2 r f)) (Fin.ext ?_)
    show min (iS (ix2 e (0 : Fin 1))).toInt.toNat (50000 - 1) = (src e).val
    rw [hS, Spec.toInt_node]
    have := (src e).isLt
    omega

end Records

end Cert.ReferenceIdeal.Hand

end
-- ==== Proof.Ref.Out.lean ====
import proofs.«146792_j51445118271859_1_alg».proof.Proof.RefReadP
import proofs.«146792_j51445118271859_1_alg».proof.Proof.Spec
import proofs.«146792_j51445118271859_1_alg».proof.Proof.Ref.Edges
import proofs.«146792_j51445118271859_1_alg».proof.Proof.Ref.Conv

noncomputable section

open scoped BigOperators

namespace Cert.ReferenceIdeal.Hand

open Cert.ReferenceIdeal Cert.ReferenceIdeal.Gen Idealize.ShloMosaic Idealize.ShloMosaic.ValueIdx Cert.Spec

-- The per-edge factor, kept as the reference computes it.
def nrm (x1 : IMat 2 300000) : Fin 350000 → EReal := fun e => Read.val_main_v29 (F := Ideal) x1 (ix1 e)

-- An array whose entry at i is the sum over k of X at (row of i, k) times W at (k, column of i) is the product X W.
theorem eq_lin {R K C : Nat} {X : Mat R K} {W : Mat K C} {Y : Mat R C}
    {l : (⟨2, ![R, C]⟩ : Shape).Idx → Fin K → (⟨2, ![R, K]⟩ : Shape).Idx}
    {r : (⟨2, ![R, C]⟩ : Shape).Idx → Fin K → (⟨2, ![K, C]⟩ : Shape).Idx}
    (hY : ∀ i, Y i = ∑ k, X (l i k) * W (r i k))
    (hl : ∀ i k a, l i k a = ix2 ⟨(i 0).val, idx2_lt0 i⟩ k a) (hr : ∀ i k a, r i k a = ix2 k ⟨(i 1).val, idx2_lt1 i⟩ a) :
    Y = lin X W :=
  funext fun i => (hY i).trans (Finset.sum_congr rfl fun k _ =>
    congrArg₂ (· * ·) (congrArg X (funext (hl i k))) (congrArg W (funext (hr i k))))

theorem v30_eq (x0 : Mat 50000 128) (x2 : Mat 128 256) : Read.val_main_v30 (F := Ideal) x0 x2 = lin x0 x2 :=
  eq_lin (Read.val_main_v30_apply x0 x2) (fun i k a => by match a with | ⟨0, _⟩ => rfl | ⟨1, _⟩ => rfl)
    (fun i k a => by match a with | ⟨0, _⟩ => rfl | ⟨1, _⟩ => rfl)

theorem v74_eq (x0 : Mat 50000 128) (x1 : IMat 2 300000) (x2 : Mat 128 256) (x3 : (⟨1, ![256]⟩ : Shape).Idx → EReal)
    (x4 : Mat 256 256) :
    Read.val_main_v74 (F := Ideal) x0 x1 x2 x3 x4 = lin (Read.val_main_v47 (F := Ideal) x0 x1 x2 x3) x4 :=
  eq_lin (Read.val_main_v74_apply x0 x1 x2 x3 x4) (fun i k a => by match a with | ⟨0, _⟩ => rfl | ⟨1, _⟩ => rfl)
    (fun i k a => by match a with | ⟨0, _⟩ => rfl | ⟨1, _⟩ => rfl)

theorem v92_eq (x0 : Mat 50000 128) (x1 : IMat 2 300000) (x2 : Mat 128 256) (x3 : (⟨1, ![256]⟩ : Shape).Idx → EReal)
    (x4 : Mat 256 256) (x5 : (⟨1, ![256]⟩ : Shape).Idx → EReal) (x6 : Mat 256 32) :
    Read.val_main_v92 (F := Ideal) x0 x1 x2 x3 x4 x5 x6 = lin (Read.val_main_v91 (F := Ideal) x0 x1 x2 x3 x4 x5) x6 :=
  eq_lin (Read.val_main_v92_apply x0 x1 x2 x3 x4 x5 x6) (fun i k a => by match a with | ⟨0, _⟩ => rfl | ⟨1, _⟩ => rfl)
    (fun i k a => by match a with | ⟨0, _⟩ => rfl | ⟨1, _⟩ => rfl)

-- The factor array spread over the 256 columns.
theorem v39_at (x1 : IMat 2 300000) (e : Fin 350000) (f : Fin 256) :
    Read.val_main_v39 (F := Ideal) x1 (ix2 e f) = nrm x1 e := by
  rw [Read.val_main_v39_apply, Read.val_main_v38_apply]
  exact congrArg _ (funext fun a => by match a with | ⟨0, _⟩ => rfl)

-- A bias row spread over the nodes.
theorem v45_at (x3 : (⟨1, ![256]⟩ : Shape).Idx → EReal) (n : Fin 50000) (f : Fin 256) :
    Read.val_main_v45 (F := Ideal) x3 (ix2 n f) = x3 (ix1 f) := by
  rw [Read.val_main_v45_apply, Read.val_main_v44_apply]
  exact congrArg _ (funext fun a => by match a with | ⟨0, _⟩ => rfl)

theorem v41_zero (i : S50000x256.Idx) : Read.val_main_v41 (F := Ideal) i = 0 := by
  rw [Read.val_main_v41_apply, Read.val_main_cst_8_apply]; exact Ideal.ofBits_zero_f32

theorem call1_v0_zero (i : S50000x256.Idx) : Read.val_main_call1_v0 (F := Ideal) i = 0 := by
  rw [Read.val_main_call1_v0_apply, Read.val_main_call1_cst_apply]; exact Ideal.ofBits_zero_f32

-- One convolution of the reference over any feature array H and bias row b: the second convolution runs the first's
-- operations on the same edge array, so its index columns, factors and zeros are the first's.
theorem conv_eq (x1 : IMat 2 300000) (hr : InRange x1) (H : Mat 50000 256) (b : (⟨1, ![256]⟩ : Shape).Idx → EReal) :
    maximumf (F := Ideal) (φ := .f32)
        (addf (Host.scatterAdd scatter_S50000x256_S350000x1_S350000x256_1_0_0_1 (Read.val_main_v41 (F := Ideal))
          (Read.val_main_v42 (F := Ideal) x1)
          (mulf (Host.gather gather_S50000x256_S350000x1_S350000x256_1_0_n_n_0_1_1256 H (Read.val_main_v36 (F := Ideal) x1))
            (Read.val_main_v39 (F := Ideal) x1))) (Read.val_main_v45 (F := Ideal) b)) (Read.val_main_call1_v0 (F := Ideal))
      = rConv (endOf x1 hr 0) (endOf x1 hr 1) (nrm x1) H (fun f => b (ix1 f)) := by
  funext i
  obtain ⟨n, f, rfl⟩ : ∃ n f, i = ix2 n f := ⟨i 0, i 1, eq_ix2 i⟩
  exact conv_layer _ _ _ _ H _ _ _ _ _ _ (v36_at x1 hr) (v42_at x1 hr) (v39_at x1) v41_zero (v45_at b) call1_v0_zero n f

theorem v94_at (x7 : (⟨1, ![32]⟩ : Shape).Idx → EReal) (n : Fin 50000) (c : Fin 32) :
    Read.val_main_v94 (F := Ideal) x7 (ix2 n c) = x7 (ix1 c) := by
  rw [Read.val_main_v94_apply, Read.val_main_v93_apply]
  exact congrArg _ (funext fun a => by match a with | ⟨0, _⟩ => rfl)

-- The result at (n, c): the dense layer of the two convolutions, plus the last bias.
theorem ref_out (x0 : Mat 50000 128) (x1 : IMat 2 300000) (x2 : Mat 128 256) (x3 : (⟨1, ![256]⟩ : Shape).Idx → EReal)
    (x4 : Mat 256 256) (x5 : (⟨1, ![256]⟩ : Shape).Idx → EReal) (x6 : Mat 256 32) (x7 : (⟨1, ![32]⟩ : Shape).Idx → EReal)
    (hr : InRange x1) (n : Fin 50000) (c : Fin 32) :
    Read.val_main_v95 (F := Ideal) x0 x1 x2 x3 x4 x5 x6 x7 (ix2 n c)
      = lin (rConv (endOf x1 hr 0) (endOf x1 hr 1) (nrm x1)
          (lin (rConv (endOf x1 hr 0) (endOf x1 hr 1) (nrm x1) (lin x0 x2) (fun f => x3 (ix1 f))) x4)
          (fun f => x5 (ix1 f))) x6 (ix2 n c) + x7 (ix1 c) := by
  have h47 : Read.val_main_v47 (F := Ideal) x0 x1 x2 x3 = _ := (conv_eq x1 hr _ x3).trans (by rw [v30_eq])
  have h91 : Read.val_main_v91 (F := Ideal) x0 x1 x2 x3 x4 x5 = _ := (conv_eq x1 hr _ x5).trans (by rw [v74_eq, h47])
  rw [← h91, ← v92_eq, ← v94_at x7 n c]
  rfl

end Cert.ReferenceIdeal.Hand

end
-- ==== Proof.RefFrame.lean ====
import proofs.«146792_j51445118271859_1_alg».proof.Defs
import proofs.«146792_j51445118271859_1_alg».proof.Proof.Gen.ReferenceIdeal
import proofs.«146792_j51445118271859_1_alg».proof.Proof.RefRunP
import proofs.«146792_j51445118271859_1_alg».proof.Proof.RefReadP

noncomputable section

namespace Cert.ReferenceIdeal.Hand

open Idealize.ShloMosaic Idealize.ShloMosaic.TcCoe Idealize.SL.Sem

theorem frame_ri [hPre : Cert.Pre_finite_inputs.Facts] : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

end Cert.ReferenceIdeal.Hand

end
-- ==== Proof.LibTileSum.lean ====
import Idealize.ShloMosaic.PureOps.Ideal

namespace Cert.Lib.TileSum

-- A sum over B·E places, taken tile by tile: pairs (t, e) correspond to places t·E + e.
theorem sum_tiles {M : Type*} [AddCommMonoid M] (B E : ℕ) (g : Fin (B * E) → M) :
    ∑ k, g k = ∑ t : Fin B, ∑ e : Fin E, g ⟨t.val * E + e.val, by
      have h := Nat.mul_le_mul_right E (Nat.succ_le_of_lt t.isLt); have := e.isLt; rw [Nat.succ_mul] at h; omega⟩ := by
  rw [← Fintype.sum_prod_type', ← finProdFinEquiv.sum_comp g]
  exact Finset.sum_congr rfl fun p _ => congrArg g (Fin.ext (by simp [finProdFinEquiv, Nat.mul_comm, Nat.add_comm]))

end Cert.Lib.TileSum
-- ==== Proof.Algebra.lean ====
import proofs.«146792_j51445118271859_1_alg».proof.Proof.Spec
import proofs.«146792_j51445118271859_1_alg».proof.Proof.LibTileSum

noncomputable section

open scoped BigOperators

namespace Cert.Spec

open Idealize.ShloMosaic Idealize.ShloMosaic.ValueIdx

-- Below 2³² a number is determined by its 32-bit word.
theorem ofNat_inj_of_lt {a b : ℕ} (ha : a < 2 ^ 32) (hb : b < 2 ^ 32) (h : BitVec.ofNat 32 a = BitVec.ofNat 32 b) : a = b := by
  have e := congrArg BitVec.toNat h
  rwa [BitVec.toNat_ofNat, BitVec.toNat_ofNat, Nat.mod_eq_of_lt ha, Nat.mod_eq_of_lt hb] at e

-- The word −1 is the word of 2³² − 1 only.
theorem neg_one_ne_ofNat {a : ℕ} (ha : a < 2 ^ 32 - 1) : (4294967295#32 : BitVec 32) ≠ BitVec.ofNat 32 a := fun h => by
  have := congrArg BitVec.toNat h
  simp [BitVec.toNat_ofNat] at this
  omega

theorem sum_edge_tiles {M : Type*} [AddCommMonoid M] (g : Fin 350208 → M) :
    ∑ t : Fin 342, ∑ j : Fin 1024, g (edgeAt t j) = ∑ e : Fin 350208, g e :=
  (Cert.Lib.TileSum.sum_tiles 342 1024 g).symm

-- Exactly one node of one tile carries the word of s; every other product is with 0.
theorem kMsg_of_word (src : IMat 350208 1) (nrm : Mat 350208 1) (Hp : Mat 51200 256) (e : Fin 350208) (f : Fin 256)
    (s : Fin 51200) (hs : src (ix2 e 0) = BitVec.ofNat 32 s.val) :
    kMsg src nrm Hp (ix2 e f) = Hp (ix2 s f) * nrm (ix2 e 0) := by
  have hsl := s.isLt
  have hne : ∀ (t : Fin 25) (j : Fin 2048), t.val * 2048 + j.val ≠ s.val →
      ind (BitVec.ofNat 32 s.val = BitVec.ofNat 32 (nodeAt t j).val) * Hp (ix2 (nodeAt t j) f) = 0 := fun t j h => by
    have := t.isLt; have := j.isLt
    rw [ind_neg fun e => h (ofNat_inj_of_lt (by omega) (by show t.val * 2048 + j.val < 2 ^ 32; omega) e).symm, zero_mul]
  rw [kMsg_ix2, hs, Fintype.sum_eq_single (⟨s.val / 2048, by omega⟩ : Fin 25),
    Fintype.sum_eq_single (⟨s.val % 2048, by omega⟩ : Fin 2048),
    show nodeAt ⟨s.val / 2048, by omega⟩ ⟨s.val % 2048, by omega⟩ = s from Fin.ext (Nat.div_add_mod' _ _), ind_pos rfl, one_mul]
  · exact fun j hj => hne _ j fun h => hj (Fin.ext (by
      have h' : s.val / 2048 * 2048 + j.val = s.val := h
      show j.val = s.val % 2048; omega))
  · exact fun t ht => by
      rw [Finset.sum_eq_zero fun j _ => hne t j fun h => ht (Fin.ext (by
        have := j.isLt; show t.val = s.val / 2048; omega)), zero_mul]

theorem lin_row_congr {R R' K C : Nat} (X : Mat R K) (X' : Mat R' K) (W : Mat K C) (r : Fin R) (r' : Fin R')
    (h : ∀ k : Fin K, X (ix2 r k) = X' (ix2 r' k)) (c : Fin C) : lin X W (ix2 r c) = lin X' W (ix2 r' c) :=
  Finset.sum_congr rfl fun k _ => congrArg (· * W (ix2 k c)) (h k)

-- Padded edge arrays that agree with an edge list on the 350000 real edges; a padded edge's destination word is −1.
structure Pads (srcp : IMat 350208 1) (dstp : IMat 1 350208) (nrmp : Mat 350208 1)
    (src dst : Fin 350000 → Fin 50000) (nrm : Fin 350000 → EReal) : Prop where
  hsrc : ∀ e : Fin 350000, srcp (ix2 (Fin.castAdd 208 e) 0) = BitVec.ofNat 32 (src e).val
  hdst : ∀ e : Fin 350000, dstp (ix2 0 (Fin.castAdd 208 e)) = BitVec.ofNat 32 (dst e).val
  hpad : ∀ i : Fin 208, dstp (ix2 0 (Fin.natAdd 350000 i)) = 4294967295#32
  hnrm : ∀ e : Fin 350000, nrmp (ix2 (Fin.castAdd 208 e) 0) = nrm e

variable {srcp : IMat 350208 1} {dstp : IMat 1 350208} {nrmp : Mat 350208 1}
  {src dst : Fin 350000 → Fin 50000} {nrm : Fin 350000 → EReal} (P : Pads srcp dstp nrmp src dst nrm)
include P

-- A real edge that ends at n sends row src e scaled; any other edge, real or padded, meets a 0 in the 0/1 row "dst e = n".
theorem kAgg_kMsg_eq {Hp : Mat 51200 256} {bp : Mat 1 256} {H : Mat 50000 256} {b : Fin 256 → EReal}
    (hH : ∀ (v : Fin 50000) (f : Fin 256), Hp (ix2 (Fin.castAdd 1200 v) f) = H (ix2 v f))
    (hb : ∀ f : Fin 256, bp (ix2 0 f) = b f) (n : Fin 50000) (f : Fin 256) :
    kAgg dstp (kMsg srcp nrmp Hp) bp (ix2 (Fin.castAdd 1200 n) f) = rConv src dst nrm H b (ix2 n f) := by
  have hn := n.isLt
  rw [kAgg_ix2, Fin.coe_castAdd, rConv_ix2, hb,
    sum_edge_tiles fun e => ind (dstp (ix2 0 e) = BitVec.ofNat 32 n.val) * kMsg srcp nrmp Hp (ix2 e f), Finset.sum_filter]
  refine congrArg (fun z => max (z + b f) 0) ((Fin.sum_univ_add (a := 350000) (b := 208) _).trans
    ((congrArg₂ (· + ·) (Finset.sum_congr rfl fun e _ => ?_) (Finset.sum_eq_zero fun i _ => ?_)).trans (add_zero _)))
  · rw [P.hdst e]
    have hd := (dst e).isLt
    have hsv := (src e).isLt
    by_cases hdn : (dst e).val = n.val
    · rw [if_pos hdn, ind_pos (by rw [hdn]), one_mul, kMsg_of_word srcp nrmp Hp _ f ⟨(src e).val, by omega⟩ (P.hsrc e), P.hnrm e]
      exact congrArg (· * nrm e) (hH (src e) f)
    · rw [if_neg hdn, ind_neg (fun h => hdn (ofNat_inj_of_lt (by omega) (by omega) h)), zero_mul]
  · rw [P.hpad i, ind_neg (neg_one_ne_ofNat (by omega)), zero_mul]

-- Two convolutions and the closing dense layer: a row of a product depends only on that row of the left factor.
theorem kernel_eq_ref {xp : Mat 51200 128} {x0 : Mat 50000 128}
    {W1 : Mat 128 256} {b1r : Mat 1 256} {W2 : Mat 256 256} {b2r : Mat 1 256} {Wc : Mat 256 32} {bcr : Mat 1 32}
    {b1 b2 : Fin 256 → EReal} {bc : Fin 32 → EReal}
    (hx : ∀ (v : Fin 50000) (k : Fin 128), xp (ix2 (Fin.castAdd 1200 v) k) = x0 (ix2 v k))
    (hb1 : ∀ f : Fin 256, b1r (ix2 0 f) = b1 f) (hb2 : ∀ f : Fin 256, b2r (ix2 0 f) = b2 f)
    (hbc : ∀ f : Fin 32, bcr (ix2 0 f) = bc f) (n : Fin 50000) (c : Fin 32) :
    linBias (kAgg dstp (kMsg srcp nrmp (lin (kAgg dstp (kMsg srcp nrmp (lin xp W1)) b1r) W2)) b2r) Wc bcr
        (ix2 (Fin.castAdd 1200 n) c)
      = lin (rConv src dst nrm (lin (rConv src dst nrm (lin x0 W1) b1) W2) b2) Wc (ix2 n c) + bc c := by
  rw [linBias_ix2, hbc, ← lin_ix2]
  refine congrArg (· + bc c) (lin_row_congr _ _ Wc _ n (fun k => ?_) c)
  refine kAgg_kMsg_eq P (fun v f => ?_) hb2 n k
  refine lin_row_congr _ _ W2 _ v (fun k' => ?_) f
  exact kAgg_kMsg_eq P (fun v' f' => lin_row_congr xp x0 W1 _ v' (hx v') f') hb1 v k'

end Cert.Spec

end
-- ==== Proof.lean ====
import proofs.«146792_j51445118271859_1_alg».proof.Defs
import proofs.«146792_j51445118271859_1_alg».proof.Proof.Gen.Kernel
import proofs.«146792_j51445118271859_1_alg».proof.Proof.Gen.KernelIdeal
import proofs.«146792_j51445118271859_1_alg».proof.Proof.Gen.ReferenceIdeal
import proofs.«146792_j51445118271859_1_alg».proof.Proof.Gen.Pre_finite_inputs
import proofs.«146792_j51445118271859_1_alg».proof.Proof.K.Run
import proofs.«146792_j51445118271859_1_alg».proof.Proof.KI.Run
import proofs.«146792_j51445118271859_1_alg».proof.Proof.KI.Out
import proofs.«146792_j51445118271859_1_alg».proof.Proof.KI.Host.NrmRef
import proofs.«146792_j51445118271859_1_alg».proof.Proof.Ref.Pre
import proofs.«146792_j51445118271859_1_alg».proof.Proof.Ref.Out
import proofs.«146792_j51445118271859_1_alg».proof.Proof.RefFrame
import proofs.«146792_j51445118271859_1_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal Cert.KernelIdeal.Gen Cert.KernelIdeal.Hand Cert.Spec
open Cert.ReferenceIdeal.Hand (range_of_pre ref_out nrm)

-- Over the extended reals the kernel's result is its seven stages composed, the reference's the same network read off
-- its operations; where every edge entry names a node the tiled 0/1 products are the indexed reads and sums.
theorem algebraic : Cert.algebraic_KernelIdeal_ReferenceIdeal := by
  intro m ρ m' ρ' hpre hagree
  refine ⟨fun c => V14 m (outs m) c main_v51, run_main (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7⟩ := hagree c
  have hr : InRange (edgeArg m c) := range_of_pre _ _ _ _ _ _ _ _ (hpre c)
  show Cert.ReferenceIdeal.Value.res_main_v95 m' c = V14 m (outs m) c main_v51
  rw [Cert.ReferenceIdeal.Read.val_main_v95_eq, a0, a1, a2, a3, a4, a5, a6, a7]
  funext i
  obtain ⟨n, k, rfl⟩ : ∃ (n : Fin 50000) (k : Fin 32), i = ix2 n k := ⟨i 0, i 1, eq_ix2 i⟩
  rw [ref_out _ _ _ _ _ _ _ _ hr n k, kernel_out m c n k]
  have P : Pads (W3 m c main_v36) (W3 m c main_v37) (W3 m c main_v38) (endOf (edgeArg m c) hr 0) (endOf (edgeArg m c) hr 1)
      (nrm (edgeArg m c)) :=
    ⟨host_src_lt m c hr, host_dst_lt m c hr, host_dst_ge m c,
      fun e => (host_nrm m c e).trans (congrFun (host_nrm_ref m c) (ix1 e))⟩
  have hb1 : ∀ f : Fin 256, (W6 m c main_v43 : S1x256.Idx → EReal) (ix2 0 f)
      = (m ((c : Thread nD τ).loc main_arg3) : S256.Idx → EReal) (ix1 f) := fun f => by
    rw [← V6_eq m c]; exact host_b1 m (outs m) c f
  have hb2 : ∀ f : Fin 256, (W10 m c main_v47 : S1x256.Idx → EReal) (ix2 0 f)
      = (m ((c : Thread nD τ).loc main_arg5) : S256.Idx → EReal) (ix1 f) := fun f => by
    rw [← V10_eq m c]; exact host_b2 m (outs m) c f
  have hb3 : ∀ f : Fin 32, (W12 m c main_v49 : S1x32.Idx → EReal) (ix2 0 f)
      = (m ((c : Thread nD τ).loc main_arg7) : S32.Idx → EReal) (ix1 f) := fun f => by
    rw [← V12_eq m c]; exact host_b3 m (outs m) c f
  exact (kernel_eq_ref P (host_xpad m c) hb1 hb2 hb3 n k).symm

-- Each program's run ends, faults nowhere and leaves its arguments as they were.
theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := Cert.ReferenceIdeal.Hand.frame_ri

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
